-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part8 {F : FTy → Type} [FloatOps F] (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  main_v138

def fn_part7 {F : FTy → Type} [FloatOps F] (main_arg27 : FVec F S128 .f32) (main_arg28 : FVec F S128x64 .f32) (main_arg29 : FVec F S64 .f32) (main_v118 : IVec S_ 1) (main_v119 : FVec F S64x128 .f32) : IVec S_ 1 :=
  let main_cst_46 : FVec F S_ .f32 := constant S_ .f32 0x7F800000#32
  let main_v120 : FVec F S64x128 .f32 := broadcastInDim S64x128 ![] bcast_S_S64x128 main_cst_46
  let main_v121 : IVec S64x128 1 := cmpf .olt main_v119 main_v120
  let main_c_47 : IVec S_ 1 := constantI S_ 1 1#1
  let main_v122 : IVec S_ 1 := (fun x v => Host.reduce IntOp.andi x v reducesTo_S64x128_S_d0_1 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x64 .f32 := Host.absf main_arg28
  let main_cst_50 : FVec F S_ .f32 := constant S_ .f32 0x7F800000#32
  let main_v130 : FVec F S128x64 .f32 := broadcastInDim S128x64 ![] bcast_S_S128x64 main_cst_50
  let main_v131 : IVec S128x64 1 := cmpf .olt main_v129 main_v130
  let main_c_51 : IVec S_ 1 := constantI S_ 1 1#1
  let main_v132 : IVec S_ 1 := (fun x v => Host.reduce IntOp.andi x v reducesTo_S128x64_S_d0_1 h_S_) main_v131 main_c_51
  let main_v133 : IVec S_ 1 := andi main_v128 main_v132
  let main_v134 : FVec F S64 .f32 := Host.absf main_arg29
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_v133 main_v136

def fn_part6 {F : FTy → Type} [FloatOps F] (main_arg23 : FVec F S128 .f32) (main_arg24 : FVec F S128x64 .f32) (main_arg25 : FVec F S64 .f32) (main_arg26 : FVec F S64x128 .f32) (main_arg27 : FVec F S128 .f32) (main_arg28 : FVec F S128x64 .f32) (main_arg29 : FVec F S64 .f32) (main_v98 : IVec S_ 1) (main_v101 : IVec S64x128 1) (main_c_39 : IVec S_ 1) : IVec S_ 1 :=
  let main_v102 : IVec S_ 1 := (fun x v => Host.reduce IntOp.andi x v reducesTo_S64x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x64 .f32 := Host.absf main_arg24
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x128 .f32 := Host.absf main_arg26
  fn_part7 (F := F) main_arg27 main_arg28 main_arg29 main_v118 main_v119

def fn_part5 {F : FTy → Type} [FloatOps F] (main_arg20 : FVec F S64 .f32) (main_arg21 : FVec F S64 .f32) (main_arg22 : FVec F S64x128 .f32) (main_arg23 : FVec F S128 .f32) (main_arg24 : FVec F S128x64 .f32) (main_arg25 : FVec F S64 .f32) (main_arg26 : FVec F S64x128 .f32) (main_arg27 : FVec F S128 .f32) (main_arg28 : FVec F S128x64 .f32) (main_arg29 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x128 .f32 := Host.absf main_arg22
  let main_cst_38 : FVec F S_ .f32 := constant S_ .f32 0x7F800000#32
  let main_v100 : FVec F S64x128 .f32 := broadcastInDim S64x128 ![] bcast_S_S64x128 main_cst_38
  let main_v101 : IVec S64x128 1 := cmpf .olt main_v99 main_v100
  let main_c_39 : IVec S_ 1 := constantI S_ 1 1#1
  fn_part6 (F := F) main_arg23 main_arg24 main_arg25 main_arg26 main_arg27 main_arg28 main_arg29 main_v98 main_v101 main_c_39

def fn_part4 {F : FTy → Type} [FloatOps F] (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x128 .f32) (main_arg23 : FVec F S128 .f32) (main_arg24 : FVec F S128x64 .f32) (main_arg25 : FVec F S64 .f32) (main_arg26 : FVec F S64x128 .f32) (main_arg27 : FVec F S128 .f32) (main_arg28 : FVec F S128x64 .f32) (main_arg29 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x128 .f32) (main_arg23 : FVec F S128 .f32) (main_arg24 : FVec F S128x64 .f32) (main_arg25 : FVec F S64 .f32) (main_arg26 : FVec F S64x128 .f32) (main_arg27 : FVec F S128 .f32) (main_arg28 : FVec F S128x64 .f32) (main_arg29 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_arg24 main_arg25 main_arg26 main_arg27 main_arg28 main_arg29 main_v63 main_v67

def fn_part2 {F : FTy → Type} [FloatOps F] (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x128 .f32) (main_arg23 : FVec F S128 .f32) (main_arg24 : FVec F S128x64 .f32) (main_arg25 : FVec F S64 .f32) (main_arg26 : FVec F S64x128 .f32) (main_arg27 : FVec F S128 .f32) (main_arg28 : FVec F S128x64 .f32) (main_arg29 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg6 : FVec F S64x64 .f32) (main_arg7 : FVec F S64x64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x128 .f32) (main_arg23 : FVec F S128 .f32) (main_arg24 : FVec F S128x64 .f32) (main_arg25 : FVec F S64 .f32) (main_arg26 : FVec F S64x128 .f32) (main_arg27 : FVec F S128 .f32) (main_arg28 : FVec F S128x64 .f32) (main_arg29 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x64 .f32) (main_arg1 : FVec F S800000x64 .f32) (main_arg2 : IVec S800000 32) (main_arg3 : IVec S800000 32) (main_arg4 : FVec F S64x64 .f32) (main_arg5 : FVec F S64x64 .f32) (main_arg6 : FVec F S64x64 .f32) (main_arg7 : FVec F S64x64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_arg20 : FVec F S64 .f32) (main_arg21 : FVec F S64 .f32) (main_arg22 : FVec F S64x128 .f32) (main_arg23 : FVec F S128 .f32) (main_arg24 : FVec F S128x64 .f32) (main_arg25 : FVec F S64 .f32) (main_arg26 : FVec F S64x128 .f32) (main_arg27 : FVec F S128 .f32) (main_arg28 : FVec F S128x64 .f32) (main_arg29 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x64 : Shape := ⟨2, ![1, 64]⟩
abbrev S1x128 : Shape := ⟨2, ![1, 128]⟩
abbrev S10000x64 : Shape := ⟨2, ![10000, 64]⟩
abbrev S_ : Shape := ⟨0, ![]⟩
abbrev S8000x64 : Shape := ⟨2, ![8000, 64]⟩
abbrev S800000x1 : Shape := ⟨2, ![800000, 1]⟩
abbrev S10000x128 : Shape := ⟨2, ![10000, 128]⟩
abbrev S8000x128 : Shape := ⟨2, ![8000, 128]⟩

abbrev nBuf : Space → Nat
  | .hbm => 145
  | .vmem => 98
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64, .f32⟩
  | 21 => ⟨S64, .f32⟩
  | 22 => ⟨S64x128, .f32⟩
  | 23 => ⟨S128, .f32⟩
  | 24 => ⟨S128x64, .f32⟩
  | 25 => ⟨S64, .f32⟩
  | 26 => ⟨S64x128, .f32⟩
  | 27 => ⟨S128, .f32⟩
  | 28 => ⟨S128x64, .f32⟩
  | 29 => ⟨S64, .f32⟩
  | 30 => ⟨S1x64, .f32⟩
  | 31 => ⟨S1x64, .f32⟩
  | 32 => ⟨S1x64, .f32⟩
  | 33 => ⟨S1x64, .f32⟩
  | 34 => ⟨S1x64, .f32⟩
  | 35 => ⟨S1x64, .f32⟩
  | 36 => ⟨S1x64, .f32⟩
  | 37 => ⟨S1x64, .f32⟩
  | 38 => ⟨S1x64, .f32⟩
  | 39 => ⟨S1x64, .f32⟩
  | 40 => ⟨S1x64, .f32⟩
  | 41 => ⟨S1x64, .f32⟩
  | 42 => ⟨S1x64, .f32⟩
  | 43 => ⟨S1x128, .f32⟩
  | 44 => ⟨S1x64, .f32⟩
  | 45 => ⟨S1x128, .f32⟩
  | 46 => ⟨S1x64, .f32⟩
  | 47 => ⟨S1x64, .f32⟩
  | 48 => ⟨S1x64, .f32⟩
  | 49 => ⟨S_, .f32⟩
  | 50 => ⟨S1x64, .f32⟩
  | 51 => ⟨S1x64, .f32⟩
  | 52 => ⟨S_, .f32⟩
  | 53 => ⟨S1x64, .f32⟩
  | 54 => ⟨S1x64, .f32⟩
  | 55 => ⟨S1x64, .f32⟩
  | 56 => ⟨S1x64, .f32⟩
  | 57 => ⟨S_, .f32⟩
  | 58 => ⟨S1x64, .f32⟩
  | 59 => ⟨S1x64, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S_, .f32⟩
  | 66 => ⟨S1x64, .f32⟩
  | 67 => ⟨S1x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S50000x64, .f32⟩
  | 74 => ⟨S50000x64, .f32⟩
  | 75 => ⟨S50000x64, .f32⟩
  | 76 => ⟨S50000x64, .f32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S800000x64, .f32⟩
  | 106 => ⟨S800000x64, .f32⟩
  | 107 => ⟨S800000x64, .f32⟩
  | 108 => ⟨S_, .f32⟩
  | 109 => ⟨S50000x64, .f32⟩
  | 110 => ⟨S800000x1, .i32⟩
  | 111 => ⟨S50000x64, .f32⟩
  | 112 => ⟨S_, .f32⟩
  | 113 => ⟨S50000x64, .f32⟩
  | 114 => ⟨S800000x1, .i32⟩
  | 115 => ⟨S50000x64, .f32⟩
  | 116 => ⟨S50000x64, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S1x64, .f32⟩
  | 126 => ⟨S1x64, .f32⟩
  | 127 => ⟨S_, .f32⟩
  | _ => ⟨S50000x64, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S50000x64, .f32⟩
  | 16 => ⟨S800000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S1x64, .f32⟩
  | .local _ .vmem, ⟨3, _⟩ => ⟨S1x64, .f32⟩
  | .local _ .vmem, ⟨4, _⟩ => ⟨S8000x64, .f32⟩
  | .local _ .vmem, ⟨5, _⟩ => ⟨S8000x64, .f32⟩
  | .local _ .vmem, ⟨6, _⟩ => ⟨S1x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S8000x64, .f32⟩
  | .local _ .vmem, ⟨31, _⟩ => ⟨S8000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S8000x64, .f32⟩
  | .local _ .vmem, ⟨39, _⟩ => ⟨S8000x64, .f32⟩
  | .local _ .vmem, ⟨40, _⟩ => ⟨S8000x64, .f32⟩
  | .local _ .vmem, ⟨41, _⟩ => ⟨S8000x64, .f32⟩
  | .local _ .vmem, ⟨42, _⟩ => ⟨S8000x64, .f32⟩
  | .local _ .vmem, ⟨43, _⟩ => ⟨S8000x64, .f32⟩
  | .local _ .vmem, ⟨44, _⟩ => ⟨S8000x64, .f32⟩
  | .local _ .vmem, ⟨45, _⟩ => ⟨S8000x64, .f32⟩
  | .local _ .vmem, ⟨46, _⟩ => ⟨S8000x64, .f32⟩
  | .local _ .vmem, ⟨47, _⟩ => ⟨S8000x64, .f32⟩
  | .local _ .vmem, ⟨48, _⟩ => ⟨S8000x64, .f32⟩
  | .local _ .vmem, ⟨49, _⟩ => ⟨S8000x64, .f32⟩
  | .local _ .vmem, ⟨50, _⟩ => ⟨S8000x64, .f32⟩
  | .local _ .vmem, ⟨51, _⟩ => ⟨S8000x64, .f32⟩
  | .local _ .vmem, ⟨52, _⟩ => ⟨S8000x64, .f32⟩
  | .local _ .vmem, ⟨53, _⟩ => ⟨S8000x64, .f32⟩
  | .local _ .vmem, ⟨54, _⟩ => ⟨S8000x64, .f32⟩
  | .local _ .vmem, ⟨55, _⟩ => ⟨S8000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S1x64, .f32⟩
  | .local _ .vmem, ⟨69, _⟩ => ⟨S1x64, .f32⟩
  | .local _ .vmem, ⟨70, _⟩ => ⟨S8000x64, .f32⟩
  | .local _ .vmem, ⟨71, _⟩ => ⟨S8000x64, .f32⟩
  | .local _ .vmem, ⟨72, _⟩ => ⟨S1x64, .f32⟩
  | .local _ .vmem, ⟨73, _⟩ => ⟨S1x64, .f32⟩
  | .local _ .vmem, ⟨74, _⟩ => ⟨S10000x64, .f32⟩
  | .local _ .vmem, ⟨75, _⟩ => ⟨S10000x64, .f32⟩
  | .local _ .vmem, ⟨76, _⟩ => ⟨S1x64, .f32⟩
  | .local _ .vmem, ⟨77, _⟩ => ⟨S1x64, .f32⟩
  | .local _ .vmem, ⟨78, _⟩ => ⟨S1x64, .f32⟩
  | .local _ .vmem, ⟨79, _⟩ => ⟨S1x64, .f32⟩
  | .local _ .vmem, ⟨80, _⟩ => ⟨S64x128, .f32⟩
  | .local _ .vmem, ⟨81, _⟩ => ⟨S1x128, .f32⟩
  | .local _ .vmem, ⟨82, _⟩ => ⟨S128x64, .f32⟩
  | .local _ .vmem, ⟨83, _⟩ => ⟨S1x64, .f32⟩
  | .local _ .vmem, ⟨84, _⟩ => ⟨S10000x64, .f32⟩
  | .local _ .vmem, ⟨85, _⟩ => ⟨S10000x64, .f32⟩
  | .local _ .vmem, ⟨86, _⟩ => ⟨S8000x64, .f32⟩
  | .local _ .vmem, ⟨87, _⟩ => ⟨S8000x64, .f32⟩
  | .local _ .vmem, ⟨88, _⟩ => ⟨S1x64, .f32⟩
  | .local _ .vmem, ⟨89, _⟩ => ⟨S1x64, .f32⟩
  | .local _ .vmem, ⟨90, _⟩ => ⟨S1x64, .f32⟩
  | .local _ .vmem, ⟨91, _⟩ => ⟨S1x64, .f32⟩
  | .local _ .vmem, ⟨92, _⟩ => ⟨S64x128, .f32⟩
  | .local _ .vmem, ⟨93, _⟩ => ⟨S1x128, .f32⟩
  | .local _ .vmem, ⟨94, _⟩ => ⟨S128x64, .f32⟩
  | .local _ .vmem, ⟨95, _⟩ => ⟨S1x64, .f32⟩
  | .local _ .vmem, ⟨96, _⟩ => ⟨S8000x64, .f32⟩
  | .local _ .vmem, ⟨97, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17_0 : Ref sig .tc := ⟨.hbm, 47, rfl⟩
abbrev main_v17_1 : Ref sig .tc := ⟨.hbm, 48, rfl⟩
abbrev main_cst : Ref sig .tc := ⟨.hbm, 49, rfl⟩
abbrev main_v18 : Ref sig .tc := ⟨.hbm, 50, rfl⟩
abbrev main_v19 : Ref sig .tc := ⟨.hbm, 51, rfl⟩
abbrev main_cst_0 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_1 : Ref sig .tc := ⟨.hbm, 57, rfl⟩
abbrev main_v24 : Ref sig .tc := ⟨.hbm, 58, rfl⟩
abbrev main_v25 : Ref sig .tc := ⟨.hbm, 59, rfl⟩
abbrev main_v26_0 : Ref sig .tc := ⟨.hbm, 60, rfl⟩
abbrev main_v26_1 : Ref sig .tc := ⟨.hbm, 61, rfl⟩
abbrev main_cst_2 : Ref sig .tc := ⟨.hbm, 62, rfl⟩
abbrev main_v27 : Ref sig .tc := ⟨.hbm, 63, rfl⟩
abbrev main_v28 : Ref sig .tc := ⟨.hbm, 64, rfl⟩
abbrev main_cst_3 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_4 : Ref sig .tc := ⟨.hbm, 70, rfl⟩
abbrev main_v33 : Ref sig .tc := ⟨.hbm, 71, rfl⟩
abbrev main_v34 : Ref sig .tc := ⟨.hbm, 72, rfl⟩
abbrev main_v35_0 : Ref sig .tc := ⟨.hbm, 73, rfl⟩
abbrev main_v35_1 : Ref sig .tc := ⟨.hbm, 74, rfl⟩
abbrev main_v35_2 : Ref sig .tc := ⟨.hbm, 75, rfl⟩
abbrev main_v35_3 : Ref sig .tc := ⟨.hbm, 76, rfl⟩
abbrev main_v36 : Ref sig .tc := ⟨.hbm, 77, rfl⟩
abbrev main_c : Ref sig .tc := ⟨.hbm, 78, rfl⟩
abbrev main_v37 : Ref sig .tc := ⟨.hbm, 79, rfl⟩
abbrev main_v38 : Ref sig .tc := ⟨.hbm, 80, rfl⟩
abbrev main_c_5 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_c_6 : Ref sig .tc := ⟨.hbm, 87, rfl⟩
abbrev main_v44 : Ref sig .tc := ⟨.hbm, 88, rfl⟩
abbrev main_v45 : Ref sig .tc := ⟨.hbm, 89, rfl⟩
abbrev main_c_7 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_c_8 : Ref sig .tc := ⟨.hbm, 96, rfl⟩
abbrev main_v51 : Ref sig .tc := ⟨.hbm, 97, rfl⟩
abbrev main_v52 : Ref sig .tc := ⟨.hbm, 98, rfl⟩
abbrev main_c_9 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58_0 : Ref sig .tc := ⟨.hbm, 105, rfl⟩
abbrev main_v58_1 : Ref sig .tc := ⟨.hbm, 106, rfl⟩
abbrev main_v58_2 : Ref sig .tc := ⟨.hbm, 107, rfl⟩
abbrev main_cst_10 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_11 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66_0 : Ref sig .tc := ⟨.hbm, 117, rfl⟩
abbrev main_v66_1 : Ref sig .tc := ⟨.hbm, 118, rfl⟩
abbrev main_cst_12 : Ref sig .tc := ⟨.hbm, 119, rfl⟩
abbrev main_v67 : Ref sig .tc := ⟨.hbm, 120, rfl⟩
abbrev main_v68 : Ref sig .tc := ⟨.hbm, 121, rfl⟩
abbrev main_cst_13 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_14 : Ref sig .tc := ⟨.hbm, 127, rfl⟩
abbrev main_v73 : Ref sig .tc := ⟨.hbm, 128, rfl⟩
abbrev main_v74 : Ref sig .tc := ⟨.hbm, 129, rfl⟩
abbrev main_v75_0 : Ref sig .tc := ⟨.hbm, 130, rfl⟩
abbrev main_v75_1 : Ref sig .tc := ⟨.hbm, 131, rfl⟩
abbrev main_cst_15 : Ref sig .tc := ⟨.hbm, 132, rfl⟩
abbrev main_v76 : Ref sig .tc := ⟨.hbm, 133, rfl⟩
abbrev main_v77 : Ref sig .tc := ⟨.hbm, 134, rfl⟩
abbrev main_cst_16 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_17 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg8_0 : Ref sig .tc := ⟨.vmem, 17, rfl⟩
abbrev cc2_stg9_0 : Ref sig .tc := ⟨.vmem, 18, rfl⟩
abbrev cc2_stg10_0 : Ref sig .tc := ⟨.vmem, 19, rfl⟩
abbrev cc2_stg11_0 : Ref sig .tc := ⟨.vmem, 20, rfl⟩
abbrev cc2_stg12_0 : Ref sig .tc := ⟨.vmem, 21, rfl⟩
abbrev cc2_stg13_0 : Ref sig .tc := ⟨.vmem, 22, rfl⟩
abbrev cc2_stg13_1 : Ref sig .tc := ⟨.vmem, 23, rfl⟩
abbrev cc2_stg14_0 : Ref sig .tc := ⟨.vmem, 24, rfl⟩
abbrev cc2_stg14_1 : Ref sig .tc := ⟨.vmem, 25, rfl⟩
abbrev cc2_stg15_0 : Ref sig .tc := ⟨.vmem, 26, rfl⟩
abbrev cc2_stg15_1 : Ref sig .tc := ⟨.vmem, 27, rfl⟩
abbrev cc2_stg16_0 : Ref sig .tc := ⟨.vmem, 28, rfl⟩
abbrev cc2_stg16_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc4_stg5_0 : Ref sig .tc := ⟨.vmem, 50, rfl⟩
abbrev cc4_stg5_1 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg7_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg2_0 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg6_0 : Ref sig .tc := ⟨.vmem, 81, rfl⟩
abbrev cc8_stg7_0 : Ref sig .tc := ⟨.vmem, 82, rfl⟩
abbrev cc8_stg8_0 : Ref sig .tc := ⟨.vmem, 83, rfl⟩
abbrev cc8_stg9_0 : Ref sig .tc := ⟨.vmem, 84, rfl⟩
abbrev cc8_stg9_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg2_0 : Ref sig .tc := ⟨.vmem, 89, rfl⟩
abbrev cc9_stg3_0 : Ref sig .tc := ⟨.vmem, 90, rfl⟩
abbrev cc9_stg4_0 : Ref sig .tc := ⟨.vmem, 91, rfl⟩
abbrev cc9_stg5_0 : Ref sig .tc := ⟨.vmem, 92, rfl⟩
abbrev cc9_stg6_0 : Ref sig .tc := ⟨.vmem, 93, rfl⟩
abbrev cc9_stg7_0 : Ref sig .tc := ⟨.vmem, 94, rfl⟩
abbrev cc9_stg8_0 : Ref sig .tc := ⟨.vmem, 95, rfl⟩
abbrev cc9_stg9_0 : Ref sig .tc := ⟨.vmem, 96, rfl⟩
abbrev cc9_stg9_1 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev cc2_sem8_0 : DmaSem sig := 17
abbrev cc2_sem9_0 : DmaSem sig := 18
abbrev cc2_sem10_0 : DmaSem sig := 19
abbrev cc2_sem11_0 : DmaSem sig := 20
abbrev cc2_sem12_0 : DmaSem sig := 21
abbrev cc2_sem13_0 : DmaSem sig := 22
abbrev cc2_sem13_1 : DmaSem sig := 23
abbrev cc2_sem14_0 : DmaSem sig := 24
abbrev cc2_sem14_1 : DmaSem sig := 25
abbrev cc2_sem15_0 : DmaSem sig := 26
abbrev cc2_sem15_1 : DmaSem sig := 27
abbrev cc2_sem16_0 : DmaSem sig := 28
abbrev cc2_sem16_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc4_sem5_0 : DmaSem sig := 50
abbrev cc4_sem5_1 : DmaSem sig := 51
abbrev cc4_sem6_0 : DmaSem sig := 52
abbrev cc4_sem6_1 : DmaSem sig := 53
abbrev cc4_sem7_0 : DmaSem sig := 54
abbrev cc4_sem7_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem3_1 : DmaSem sig := 63
abbrev cc5_sem4_0 : DmaSem sig := 64
abbrev cc5_sem4_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc7_sem0_0 : DmaSem sig := 70
abbrev cc7_sem0_1 : DmaSem sig := 71
abbrev cc7_sem1_0 : DmaSem sig := 72
abbrev cc7_sem2_0 : DmaSem sig := 73
abbrev cc8_sem0_0 : DmaSem sig := 74
abbrev cc8_sem0_1 : DmaSem sig := 75
abbrev cc8_sem1_0 : DmaSem sig := 76
abbrev cc8_sem2_0 : DmaSem sig := 77
abbrev cc8_sem3_0 : DmaSem sig := 78
abbrev cc8_sem4_0 : DmaSem sig := 79
abbrev cc8_sem5_0 : DmaSem sig := 80
abbrev cc8_sem6_0 : DmaSem sig := 81
abbrev cc8_sem7_0 : DmaSem sig := 82
abbrev cc8_sem8_0 : DmaSem sig := 83
abbrev cc8_sem9_0 : DmaSem sig := 84
abbrev cc8_sem9_1 : DmaSem sig := 85
abbrev cc9_sem0_0 : DmaSem sig := 86
abbrev cc9_sem0_1 : DmaSem sig := 87
abbrev cc9_sem1_0 : DmaSem sig := 88
abbrev cc9_sem2_0 : DmaSem sig := 89
abbrev cc9_sem3_0 : DmaSem sig := 90
abbrev cc9_sem4_0 : DmaSem sig := 91
abbrev cc9_sem5_0 : DmaSem sig := 92
abbrev cc9_sem6_0 : DmaSem sig := 93
abbrev cc9_sem7_0 : DmaSem sig := 94
abbrev cc9_sem8_0 : DmaSem sig := 95
abbrev cc9_sem9_0 : DmaSem sig := 96
abbrev cc9_sem9_1 : DmaSem sig := 97

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S10000x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S10000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S10000x64 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S10000x64 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S8000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S8000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S8000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x64 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S10000x64 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![100], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S128x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x64 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S8000x64 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

class Facts₀ : Prop where
  shapeCasts_S64_S1x64 : S64.ShapeCasts S1x64
  shapeCasts_S128_S1x128 : S128.ShapeCasts S1x128
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S1x64_S1x64 : S1x64.ShapeCasts S1x64
  reduces_S10000x64_S64 : S10000x64.Reduces [0] S64
  bcast_S_S1x64 : S_.BroadcastsInDim S1x64 (![] : Fin 0 → Fin S1x64.rank)
  inb_S8000x64_S8000x64_0_0 : ∀ a, (![0, 0] : Fin 2 → Nat) a + S8000x64.size a ≤ S8000x64.size a
  h_S8000x64 : 0 < S8000x64.numel
  reduces_S8000x64_S64 : S8000x64.Reduces [0] S64
  broadcasts_S1x64_S10000x64 : S1x64.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  broadcasts_S1x64_S8000x64 : S1x64.Broadcasts S8000x64
  bcast_S_S800000 : S_.BroadcastsInDim S800000 (![] : Fin 0 → Fin S800000.rank)
  bcast_S800000_S800000x1_0 : S800000.BroadcastsInDim S800000x1 (![0] : Fin 1 → Fin S800000x1.rank)
  shapeCasts_S8000x64_S8000x64 : S8000x64.ShapeCasts S8000x64
  bcast_S_S50000x64 : S_.BroadcastsInDim S50000x64 (![] : Fin 0 → Fin S50000x64.rank)
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  broadcasts_S1x128_S8000x128 : S1x128.Broadcasts S8000x128
  dot_S10000x64_S64x64_S10000x64_1_0_0_1_n_n_wf : DotDims.WF S10000x64 S64x64 S10000x64 [1] [0] [0] [1] [] []
  dot_S8000x64_S64x64_S8000x64_1_0_0_1_n_n_wf : DotDims.WF S8000x64 S64x64 S8000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x64.size a ≤ S64x64.size a
  hwx2_11 : ∀ i : grid2.Coords, EltTy.bits .f32 = 32 ∨ (Rect.block (s := S64x64) S64x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S10000x64.size a ≤ S50000x64.size a
  hwx2_13 : ∀ i : grid2.Coords, EltTy.bits .f32 = 32 ∨ (Rect.block (s := S50000x64) S10000x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S10000x64.size a ≤ S50000x64.size a
  hwx2_14 : ∀ i : grid2.Coords, EltTy.bits .f32 = 32 ∨ (Rect.block (s := S50000x64) S10000x64.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S10000x64.size a ≤ S50000x64.size a
  hwx2_15 : ∀ i : grid2.Coords, EltTy.bits .f32 = 32 ∨ (Rect.block (s := S50000x64) S10000x64.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S10000x64.size a ≤ S50000x64.size a
  hwx2_16 : ∀ i : grid2.Coords, EltTy.bits .f32 = 32 ∨ (Rect.block (s := S50000x64) S10000x64.size (cc2_transform_16 i) (hinb2_16 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8000x64.size a ≤ S800000x64.size a
  hwx3_7 : ∀ i : grid3.Coords, EltTy.bits .f32 = 32 ∨ (Rect.block (s := S800000x64) S8000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S800000x64.size a
  hwx4_1 : ∀ i : grid4.Coords, EltTy.bits .f32 = 32 ∨ (Rect.block (s := S800000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S800000x64.size a
  hwx4_2 : ∀ i : grid4.Coords, EltTy.bits .f32 = 32 ∨ (Rect.block (s := S800000x64) S8000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x64.size a ≤ S800000x64.size a
  hwx4_3 : ∀ i : grid4.Coords, EltTy.bits .f32 = 32 ∨ (Rect.block (s := S800000x64) S8000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x64.size a ≤ S800000x64.size a
  hwx4_4 : ∀ i : grid4.Coords, EltTy.bits .f32 = 32 ∨ (Rect.block (s := S800000x64) S8000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x64.size a ≤ S800000x64.size a
  hwx4_5 : ∀ i : grid4.Coords, EltTy.bits .f32 = 32 ∨ (Rect.block (s := S800000x64) S8000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8000x64.size a ≤ S800000x64.size a
  hwx4_6 : ∀ i : grid4.Coords, EltTy.bits .f32 = 32 ∨ (Rect.block (s := S800000x64) S8000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8000x64.size a ≤ S800000x64.size a
  hwx4_7 : ∀ i : grid4.Coords, EltTy.bits .f32 = 32 ∨ (Rect.block (s := S800000x64) S8000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S50000x64.size a
  hwx5_1 : ∀ i : grid5.Coords, EltTy.bits .f32 = 32 ∨ (Rect.block (s := S50000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S50000x64.size a
  hwx5_2 : ∀ i : grid5.Coords, EltTy.bits .f32 = 32 ∨ (Rect.block (s := S50000x64) S10000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S50000x64.size a
  hwx5_3 : ∀ i : grid5.Coords, EltTy.bits .f32 = 32 ∨ (Rect.block (s := S50000x64) S10000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S50000x64.size a
  hwx5_4 : ∀ i : grid5.Coords, EltTy.bits .f32 = 32 ∨ (Rect.block (s := S50000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x64.size a ≤ S800000x64.size a
  hwx7_0 : ∀ i : grid7.Coords, EltTy.bits .f32 = 32 ∨ (Rect.block (s := S800000x64) S8000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x128.size a ≤ S64x128.size a
  hwx8_5 : ∀ i : grid8.Coords, EltTy.bits .f32 = 32 ∨ (Rect.block (s := S64x128) S64x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x64.size a ≤ S128x64.size a
  hwx8_7 : ∀ i : grid8.Coords, EltTy.bits .f32 = 32 ∨ (Rect.block (s := S128x64) S128x64.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x64.size a ≤ S1x64.size a
  hwx8_8 : ∀ i : grid8.Coords, EltTy.bits .f32 = 32 ∨ (Rect.block (s := S1x64) S1x64.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S10000x64.size a ≤ S50000x64.size a
  hwx8_9 : ∀ i : grid8.Coords, EltTy.bits .f32 = 32 ∨ (Rect.block (s := S50000x64) S10000x64.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x64.size a ≤ S800000x64.size a
  hwx9_0 : ∀ i : grid9.Coords, EltTy.bits .f32 = 32 ∨ (Rect.block (s := S800000x64) S8000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x128.size a ≤ S64x128.size a
  hwx9_5 : ∀ i : grid9.Coords, EltTy.bits .f32 = 32 ∨ (Rect.block (s := S64x128) S64x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S128x64.size a ≤ S128x64.size a
  hwx9_7 : ∀ i : grid9.Coords, EltTy.bits .f32 = 32 ∨ (Rect.block (s := S128x64) S128x64.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x64.size a ≤ S1x64.size a
  hwx9_8 : ∀ i : grid9.Coords, EltTy.bits .f32 = 32 ∨ (Rect.block (s := S1x64) S1x64.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S8000x64.size a ≤ S800000x64.size a
  hwx9_9 : ∀ i : grid9.Coords, EltTy.bits .f32 = 32 ∨ (Rect.block (s := S800000x64) S8000x64.size (cc9_transform_9 i) (hinb9_9 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17_0) S1x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17_1) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg5) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v9) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg6) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v10) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg7) S64x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v11) S1x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v35_0) S10000x64.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v35_1) S10000x64.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v35_2) S10000x64.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v35_3) S10000x64.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

abbrev win3_0 : Pipeline.Window sig grid3 :=
  Pipeline.Window.ofSpec (Memref.whole main_arg1) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v12) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v36) S8000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v43) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S8000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v57) S8000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg1) S8000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v58_0) S8000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v58_1) S8000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v58_2) S8000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v35_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v64) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg0) S10000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v65) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v65) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66_0) S1x64.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v66_1) S1x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v58_0) S8000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v75_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v65) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v68) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v74) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v4) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v5) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg22) S64x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v13) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg24) S128x64.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v14) S1x64.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v84) S10000x64.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v58_0) S8000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v77) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v83) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v6) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v7) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg26) S64x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v15) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_arg28) S128x64.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v16) S1x64.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v85) S8000x64.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩
abbrev S1x64 : Shape := ⟨2, ![1, 64]⟩
abbrev S800000x1 : Shape := ⟨2, ![800000, 1]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 303
  | .vmem => 0
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S64, .f32⟩
  | 21 => ⟨S64, .f32⟩
  | 22 => ⟨S64x128, .f32⟩
  | 23 => ⟨S128, .f32⟩
  | 24 => ⟨S128x64, .f32⟩
  | 25 => ⟨S64, .f32⟩
  | 26 => ⟨S64x128, .f32⟩
  | 27 => ⟨S128, .f32⟩
  | 28 => ⟨S128x64, .f32⟩
  | 29 => ⟨S64, .f32⟩
  | 30 => ⟨S_, .f32⟩
  | 31 => ⟨S64, .f32⟩
  | 32 => ⟨S_, .f32⟩
  | 33 => ⟨S64, .f32⟩
  | 34 => ⟨S64, .f32⟩
  | 35 => ⟨S_, .i32⟩
  | 36 => ⟨S_, .f32⟩
  | 37 => ⟨S64, .f32⟩
  | 38 => ⟨S1x64, .f32⟩
  | 39 => ⟨S_, .f32⟩
  | 40 => ⟨S1x64, .f32⟩
  | 41 => ⟨S1x64, .f32⟩
  | 42 => ⟨S50000x64, .f32⟩
  | 43 => ⟨S50000x64, .f32⟩
  | 44 => ⟨S50000x64, .f32⟩
  | 45 => ⟨S_, .f32⟩
  | 46 => ⟨S_, .f32⟩
  | 47 => ⟨S_, .f32⟩
  | 48 => ⟨S_, .f32⟩
  | 49 => ⟨S64, .f32⟩
  | 50 => ⟨S64, .f32⟩
  | 51 => ⟨S64, .f32⟩
  | 52 => ⟨S_, .f32⟩
  | 53 => ⟨S_, .i1⟩
  | 54 => ⟨S_, .f32⟩
  | 55 => ⟨S_, .f32⟩
  | 56 => ⟨S64, .f32⟩
  | 57 => ⟨S64, .f32⟩
  | 58 => ⟨S1x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S64, .f32⟩
  | 66 => ⟨S64, .f32⟩
  | 67 => ⟨S64, .f32⟩
  | 68 => ⟨S1x64, .f32⟩
  | 69 => ⟨S50000x64, .f32⟩
  | 70 => ⟨S50000x64, .f32⟩
  | 71 => ⟨S1x64, .f32⟩
  | 72 => ⟨S50000x64, .f32⟩
  | 73 => ⟨S50000x64, .f32⟩
  | 74 => ⟨S_, .f32⟩
  | 75 => ⟨S64, .f32⟩
  | 76 => ⟨S_, .f32⟩
  | 77 => ⟨S64, .f32⟩
  | 78 => ⟨S64, .f32⟩
  | 79 => ⟨S_, .i32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S800000x64, .f32⟩
  | 87 => ⟨S800000x64, .f32⟩
  | 88 => ⟨S800000x64, .f32⟩
  | 89 => ⟨S_, .f32⟩
  | 90 => ⟨S_, .f32⟩
  | 91 => ⟨S_, .f32⟩
  | 92 => ⟨S_, .f32⟩
  | 93 => ⟨S64, .f32⟩
  | 94 => ⟨S64, .f32⟩
  | 95 => ⟨S64, .f32⟩
  | 96 => ⟨S_, .f32⟩
  | 97 => ⟨S_, .i1⟩
  | 98 => ⟨S_, .f32⟩
  | 99 => ⟨S_, .f32⟩
  | 100 => ⟨S64, .f32⟩
  | 101 => ⟨S64, .f32⟩
  | 102 => ⟨S1x64, .f32⟩
  | 103 => ⟨S800000x64, .f32⟩
  | 104 => ⟨S800000x64, .f32⟩
  | 105 => ⟨S1x64, .f32⟩
  | 106 => ⟨S800000x64, .f32⟩
  | 107 => ⟨S800000x64, .f32⟩
  | 108 => ⟨S_, .f32⟩
  | 109 => ⟨S64, .f32⟩
  | 110 => ⟨S64, .f32⟩
  | 111 => ⟨S64, .f32⟩
  | 112 => ⟨S1x64, .f32⟩
  | 113 => ⟨S800000x64, .f32⟩
  | 114 => ⟨S800000x64, .f32⟩
  | 115 => ⟨S1x64, .f32⟩
  | 116 => ⟨S800000x64, .f32⟩
  | 117 => ⟨S800000x64, .f32⟩
  | 118 => ⟨S50000x64, .f32⟩
  | 119 => ⟨S1x64, .f32⟩
  | 120 => ⟨S50000x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S50000x64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S1x64, .f32⟩
  | 4 => ⟨S50000x64, .f32⟩
  | 5 => ⟨S50000x64, .f32⟩
  | 6 => ⟨S800000x64, .f32⟩
  | 7 => ⟨S1x64, .f32⟩
  | 8 => ⟨S800000x64, .f32⟩
  | 9 => ⟨S800000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S800000x64, .f32⟩
  | 29 => ⟨S800000x64, .f32⟩
  | 30 => ⟨S800000x64, .f32⟩
  | 31 => ⟨S800000x64, .f32⟩
  | 32 => ⟨S_, .f32⟩
  | 33 => ⟨S800000x64, .f32⟩
  | 34 => ⟨S800000x64, .f32⟩
  | 35 => ⟨S_, .f32⟩
  | 36 => ⟨S800000x64, .f32⟩
  | 37 => ⟨S800000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S800000x64, .f32⟩
  | 48 => ⟨S_, .f32⟩
  | 49 => ⟨S50000x64, .f32⟩
  | 50 => ⟨S800000x1, .i32⟩
  | 51 => ⟨S50000x64, .f32⟩
  | 52 => ⟨S_, .f32⟩
  | 53 => ⟨S50000x64, .f32⟩
  | 54 => ⟨S800000x1, .i32⟩
  | 55 => ⟨S50000x64, .f32⟩
  | 56 => ⟨S_, .f32⟩
  | 57 => ⟨S50000x64, .f32⟩
  | 58 => ⟨S50000x64, .f32⟩
  | 59 => ⟨S50000x64, .f32⟩
  | 60 => ⟨S50000x64, .f32⟩
  | 61 => ⟨S50000x64, .f32⟩
  | 62 => ⟨S800000x64, .f32⟩
  | 63 => ⟨S_, .f32⟩
  | 64 => ⟨S64, .f32⟩
  | 65 => ⟨S_, .f32⟩
  | 66 => ⟨S64, .f32⟩
  | 67 => ⟨S64, .f32⟩
  | 68 => ⟨S_, .i32⟩
  | 69 => ⟨S_, .f32⟩
  | 70 => ⟨S64, .f32⟩
  | 71 => ⟨S1x64, .f32⟩
  | 72 => ⟨S_, .f32⟩
  | 73 => ⟨S1x64, .f32⟩
  | 74 => ⟨S1x64, .f32⟩
  | 75 => ⟨S50000x64, .f32⟩
  | 76 => ⟨S50000x64, .f32⟩
  | 77 => ⟨S50000x64, .f32⟩
  | 78 => ⟨S_, .f32⟩
  | 79 => ⟨S_, .f32⟩
  | 80 => ⟨S_, .f32⟩
  | 81 => ⟨S_, .f32⟩
  | 82 => ⟨S64, .f32⟩
  | 83 => ⟨S64, .f32⟩
  | 84 => ⟨S64, .f32⟩
  | 85 => ⟨S_, .f32⟩
  | 86 => ⟨S_, .i1⟩
  | 87 => ⟨S_, .f32⟩
  | 88 => ⟨S_, .f32⟩
  | 89 => ⟨S64, .f32⟩
  | 90 => ⟨S64, .f32⟩
  | 91 => ⟨S1x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S64, .f32⟩
  | 99 => ⟨S64, .f32⟩
  | 100 => ⟨S64, .f32⟩
  | 101 => ⟨S1x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x64, .f32⟩
  | 115 => ⟨S1x64, .f32⟩
  | 116 => ⟨S50000x64, .f32⟩
  | 117 => ⟨S50000x64, .f32⟩
  | 118 => ⟨S_, .f32⟩
  | 119 => ⟨S64, .f32⟩
  | 120 => ⟨S_, .f32⟩
  | 121 => ⟨S64, .f32⟩
  | 122 => ⟨S64, .f32⟩
  | 123 => ⟨S_, .i32⟩
  | 124 => ⟨S_, .f32⟩
  | 125 => ⟨S64, .f32⟩
  | 126 => ⟨S1x64, .f32⟩
  | 127 => ⟨S_, .f32⟩
  | _ => ⟨S50000x64, .f32⟩

abbrev hbmTy0_2 (i : Nat) : BufTy := match i % 128 with
  | 0 => ⟨S1x64, .f32⟩
  | 1 => ⟨S1x64, .f32⟩
  | 2 => ⟨S800000x64, .f32⟩
  | 3 => ⟨S800000x64, .f32⟩
  | 4 => ⟨S800000x64, .f32⟩
  | 5 => ⟨S_, .f32⟩
  | 6 => ⟨S_, .f32⟩
  | 7 => ⟨S_, .f32⟩
  | 8 => ⟨S_, .f32⟩
  | 9 => ⟨S64, .f32⟩
  | 10 => ⟨S64, .f32⟩
  | 11 => ⟨S64, .f32⟩
  | 12 => ⟨S_, .f32⟩
  | 13 => ⟨S_, .i1⟩
  | 14 => ⟨S_, .f32⟩
  | 15 => ⟨S_, .f32⟩
  | 16 => ⟨S64, .f32⟩
  | 17 => ⟨S64, .f32⟩
  | 18 => ⟨S1x64, .f32⟩
  | 19 => ⟨S800000x64, .f32⟩
  | 20 => ⟨S800000x64, .f32⟩
  | 21 => ⟨S1x64, .f32⟩
  | 22 => ⟨S800000x64, .f32⟩
  | 23 => ⟨S800000x64, .f32⟩
  | 24 => ⟨S_, .f32⟩
  | 25 => ⟨S64, .f32⟩
  | 26 => ⟨S64, .f32⟩
  | 27 => ⟨S64, .f32⟩
  | 28 => ⟨S1x64, .f32⟩
  | 29 => ⟨S800000x64, .f32⟩
  | 30 => ⟨S800000x64, .f32⟩
  | 31 => ⟨S1x64, .f32⟩
  | 32 => ⟨S800000x64, .f32⟩
  | 33 => ⟨S800000x64, .f32⟩
  | 34 => ⟨S800000x128, .f32⟩
  | 35 => ⟨S1x128, .f32⟩
  | 36 => ⟨S800000x128, .f32⟩
  | 37 => ⟨S800000x128, .f32⟩
  | 38 => ⟨S_, .f32⟩
  | 39 => ⟨S800000x128, .f32⟩
  | 40 => ⟨S800000x128, .f32⟩
  | 41 => ⟨S800000x64, .f32⟩
  | 42 => ⟨S1x64, .f32⟩
  | 43 => ⟨S800000x64, .f32⟩
  | 44 => ⟨S800000x64, .f32⟩
  | 45 => ⟨S50000x64, .f32⟩
  | 46 => ⟨S800000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_cst_0 : Ref sig .tc := ⟨.hbm, 32, rfl⟩
abbrev main_v1 : Ref sig .tc := ⟨.hbm, 33, rfl⟩
abbrev main_v2 : Ref sig .tc := ⟨.hbm, 34, rfl⟩
abbrev main_c : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_cst_3 : Ref sig .tc := ⟨.hbm, 52, rfl⟩
abbrev main_call0_v12 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_cst_1 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_2 : Ref sig .tc := ⟨.hbm, 74, rfl⟩
abbrev main_v19 : Ref sig .tc := ⟨.hbm, 75, rfl⟩
abbrev main_cst_3 : Ref sig .tc := ⟨.hbm, 76, rfl⟩
abbrev main_v20 : Ref sig .tc := ⟨.hbm, 77, rfl⟩
abbrev main_v21 : Ref sig .tc := ⟨.hbm, 78, rfl⟩
abbrev main_c_4 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_cst_5 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_c_6 : Ref sig .tc := ⟨.hbm, 138, rfl⟩
abbrev main_v58 : Ref sig .tc := ⟨.hbm, 139, rfl⟩
abbrev main_v59 : Ref sig .tc := ⟨.hbm, 140, rfl⟩
abbrev main_c_7 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_c_8 : Ref sig .tc := ⟨.hbm, 147, rfl⟩
abbrev main_v65 : Ref sig .tc := ⟨.hbm, 148, rfl⟩
abbrev main_v66 : Ref sig .tc := ⟨.hbm, 149, rfl⟩
abbrev main_c_9 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_cst_10 : Ref sig .tc := ⟨.hbm, 160, rfl⟩
abbrev main_v76 : Ref sig .tc := ⟨.hbm, 161, rfl⟩
abbrev main_v77 : Ref sig .tc := ⟨.hbm, 162, rfl⟩
abbrev main_cst_11 : Ref sig .tc := ⟨.hbm, 163, rfl⟩
abbrev main_v78 : Ref sig .tc := ⟨.hbm, 164, rfl⟩
abbrev main_v79 : Ref sig .tc := ⟨.hbm, 165, rfl⟩
abbrev main_c_12 : Ref sig .tc := ⟨.hbm, 166, rfl⟩
abbrev main_v80 : Ref sig .tc := ⟨.hbm, 167, rfl⟩
abbrev main_v81 : Ref sig .tc := ⟨.hbm, 168, rfl⟩
abbrev main_c_13 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_cst_14 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_cst_15 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_cst_16 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_cst_17 : Ref sig .tc := ⟨.hbm, 191, rfl⟩
abbrev main_v100 : Ref sig .tc := ⟨.hbm, 192, rfl⟩
abbrev main_cst_18 : Ref sig .tc := ⟨.hbm, 193, rfl⟩
abbrev main_v101 : Ref sig .tc := ⟨.hbm, 194, rfl⟩
abbrev main_v102 : Ref sig .tc := ⟨.hbm, 195, rfl⟩
abbrev main_c_19 : Ref sig .tc := ⟨.hbm, 196, rfl⟩
abbrev main_call2_cst : Ref sig .tc := ⟨.hbm, 197, rfl⟩
abbrev main_call2_v0 : Ref sig .tc := ⟨.hbm, 198, rfl⟩
abbrev main_call2_v1 : Ref sig .tc := ⟨.hbm, 199, rfl⟩
abbrev main_call2_cst_0 : Ref sig .tc := ⟨.hbm, 200, rfl⟩
abbrev main_call2_v2 : Ref sig .tc := ⟨.hbm, 201, rfl⟩
abbrev main_call2_v3 : Ref sig .tc := ⟨.hbm, 202, rfl⟩
abbrev main_call2_v4 : Ref sig .tc := ⟨.hbm, 203, rfl⟩
abbrev main_call2_v5 : Ref sig .tc := ⟨.hbm, 204, rfl⟩
abbrev main_call2_v6 : Ref sig .tc := ⟨.hbm, 205, rfl⟩
abbrev main_call2_v7 : Ref sig .tc := ⟨.hbm, 206, rfl⟩
abbrev main_call2_cst_1 : Ref sig .tc := ⟨.hbm, 207, rfl⟩
abbrev main_call2_v8 : Ref sig .tc := ⟨.hbm, 208, rfl⟩
abbrev main_call2_cst_2 : Ref sig .tc := ⟨.hbm, 209, rfl⟩
abbrev main_call2_v9 : Ref sig .tc := ⟨.hbm, 210, rfl⟩
abbrev main_call2_v10 : Ref sig .tc := ⟨.hbm, 211, rfl⟩
abbrev main_call2_v11 : Ref sig .tc := ⟨.hbm, 212, rfl⟩
abbrev main_call2_cst_3 : Ref sig .tc := ⟨.hbm, 213, rfl⟩
abbrev main_call2_v12 : Ref sig .tc := ⟨.hbm, 214, rfl⟩
abbrev main_call2_cst_4 : Ref sig .tc := ⟨.hbm, 215, rfl⟩
abbrev main_call2_call0_v0 : Ref sig .tc := ⟨.hbm, 216, rfl⟩
abbrev main_call2_call0_v1 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_cst_20 : Ref sig .tc := ⟨.hbm, 225, rfl⟩
abbrev main_v110 : Ref sig .tc := ⟨.hbm, 226, rfl⟩
abbrev main_v111 : Ref sig .tc := ⟨.hbm, 227, rfl⟩
abbrev main_v112 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_v119 : Ref sig .tc := ⟨.hbm, 235, rfl⟩
abbrev main_v120 : Ref sig .tc := ⟨.hbm, 236, rfl⟩
abbrev main_v121 : Ref sig .tc := ⟨.hbm, 237, rfl⟩
abbrev main_v122 : Ref sig .tc := ⟨.hbm, 238, rfl⟩
abbrev main_call3_cst : Ref sig .tc := ⟨.hbm, 239, rfl⟩
abbrev main_call3_v0 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_cst_21 : Ref sig .tc := ⟨.hbm, 246, rfl⟩
abbrev main_v128 : Ref sig .tc := ⟨.hbm, 247, rfl⟩
abbrev main_cst_22 : Ref sig .tc := ⟨.hbm, 248, rfl⟩
abbrev main_v129 : Ref sig .tc := ⟨.hbm, 249, rfl⟩
abbrev main_v130 : Ref sig .tc := ⟨.hbm, 250, rfl⟩
abbrev main_c_23 : Ref sig .tc := ⟨.hbm, 251, rfl⟩
abbrev main_call4_cst : Ref sig .tc := ⟨.hbm, 252, rfl⟩
abbrev main_call4_v0 : Ref sig .tc := ⟨.hbm, 253, rfl⟩
abbrev main_call4_v1 : Ref sig .tc := ⟨.hbm, 254, rfl⟩
abbrev main_call4_cst_0 : Ref sig .tc := ⟨.hbm, 255, rfl⟩
abbrev main_call4_v2 : Ref sig .tc := ⟨.hbm, 256, rfl⟩
abbrev main_call4_v3 : Ref sig .tc := ⟨.hbm, 257, rfl⟩
abbrev main_call4_v4 : Ref sig .tc := ⟨.hbm, 258, rfl⟩
abbrev main_call4_v5 : Ref sig .tc := ⟨.hbm, 259, rfl⟩
abbrev main_call4_v6 : Ref sig .tc := ⟨.hbm, 260, rfl⟩
abbrev main_call4_v7 : Ref sig .tc := ⟨.hbm, 261, rfl⟩
abbrev main_call4_cst_1 : Ref sig .tc := ⟨.hbm, 262, rfl⟩
abbrev main_call4_v8 : Ref sig .tc := ⟨.hbm, 263, rfl⟩
abbrev main_call4_cst_2 : Ref sig .tc := ⟨.hbm, 264, rfl⟩
abbrev main_call4_v9 : Ref sig .tc := ⟨.hbm, 265, rfl⟩
abbrev main_call4_v10 : Ref sig .tc := ⟨.hbm, 266, rfl⟩
abbrev main_call4_v11 : Ref sig .tc := ⟨.hbm, 267, rfl⟩
abbrev main_call4_cst_3 : Ref sig .tc := ⟨.hbm, 268, rfl⟩
abbrev main_call4_v12 : Ref sig .tc := ⟨.hbm, 269, rfl⟩
abbrev main_call4_cst_4 : Ref sig .tc := ⟨.hbm, 270, rfl⟩
abbrev main_call4_call0_v0 : Ref sig .tc := ⟨.hbm, 271, rfl⟩
abbrev main_call4_call0_v1 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_v135 : Ref sig .tc := ⟨.hbm, 277, rfl⟩
abbrev main_v136 : Ref sig .tc := ⟨.hbm, 278, rfl⟩
abbrev main_v137 : Ref sig .tc := ⟨.hbm, 279, rfl⟩
abbrev main_cst_24 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩
abbrev main_v147 : Ref sig .tc := ⟨.hbm, 290, rfl⟩
abbrev main_v148 : Ref sig .tc := ⟨.hbm, 291, rfl⟩
abbrev main_v149 : Ref sig .tc := ⟨.hbm, 292, rfl⟩
abbrev main_v150 : Ref sig .tc := ⟨.hbm, 293, rfl⟩
abbrev main_call5_cst : Ref sig .tc := ⟨.hbm, 294, rfl⟩
abbrev main_call5_v0 : Ref sig .tc := ⟨.hbm, 295, rfl⟩
abbrev main_v151 : Ref sig .tc := ⟨.hbm, 296, rfl⟩
abbrev main_v152 : Ref sig .tc := ⟨.hbm, 297, rfl⟩
abbrev main_v153 : Ref sig .tc := ⟨.hbm, 298, rfl⟩
abbrev main_v154 : Ref sig .tc := ⟨.hbm, 299, rfl⟩
abbrev main_v155 : Ref sig .tc := ⟨.hbm, 300, rfl⟩
abbrev main_v156 : Ref sig .tc := ⟨.hbm, 301, rfl⟩
abbrev main_v157 : Ref sig .tc := ⟨.hbm, 302, rfl⟩

abbrev nD : Nat := 1
abbrev τ : Topo := Topo.v7x

variable {F : FTy → Type} [FloatOps F]

class Facts₀ : Prop where
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  reducesTo_S800000x64_S64_d0 : S800000x64.ReducesTo [0] S64
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []
  dot_S800000x64_S64x128_S800000x128_1_0_0_1_n_n_wf : DotDims.WF S800000x64 S64x128 S800000x128 [1] [0] [0] [1] [] []
  dot_S800000x128_S128x64_S800000x64_1_0_0_1_n_n_wf : DotDims.WF S800000x128 S128x64 S800000x64 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Gcn

open Idealize.ShloMosaic Idealize.ShloMosaic.ValueIdx

abbrev Mat (R C : Nat) : Type := (⟨2, ![R, C]⟩ : Shape).Idx → EReal
abbrev RowV (C : Nat) : Type := Fin C → EReal

variable {R C K : Nat}

def row (x : Mat 1 C) : RowV C := fun j => x (ix2 0 j)
def vec (x : (⟨1, ![C]⟩ : Shape).Idx → EReal) : RowV C := fun j => x (ix1 j)

def epsBN : EReal := Ideal.ofBits .f32 0x3727C5AC#32
def epsGate : EReal := Ideal.ofBits .f32 0x2EDBE6FF#32
def nNodes : EReal := Ideal.ofBits .f32 0x47435000#32
def nEdges : EReal := Ideal.ofBits .f32 0x49435000#32

def colSum (X : Mat R C) : RowV C := fun j => ∑ r : Fin R, X (ix2 r j)
def colSumSq (X : Mat R C) : RowV C := fun j => ∑ r : Fin R, X (ix2 r j) * X (ix2 r j)
def mean (n : EReal) (X : Mat R C) : RowV C := fun j => Ideal.div (colSum X j) n
-- E[x²] − E[x]², clamped at zero
def varClamped (n : EReal) (X : Mat R C) : RowV C :=
  fun j => max (Ideal.div (colSumSq X j) n - mean n X j * mean n X j) 0
-- E[(x − E[x])²]; equal to the clamped form on real columns
def varCentered (n : EReal) (X : Mat R C) : RowV C :=
  fun j => Ideal.div (∑ r : Fin R, (X (ix2 r j) - mean n X j) * (X (ix2 r j) - mean n X j)) n

def bn (eps : EReal) (g b mu v : RowV C) (X : Mat R C) : Mat R C :=
  fun i => g (i 1) * (X i - mu (i 1)) * Ideal.rsqrt (v (i 1) + eps) + b (i 1)
theorem bn_apply (eps : EReal) (g b mu v : RowV C) (X : Mat R C) (r : Fin R) (j : Fin C) :
    bn eps g b mu v X (ix2 r j) = g j * (X (ix2 r j) - mu j) * Ideal.rsqrt (v j + eps) + b j := rfl

def lin (X : Mat R K) (W : Mat K C) (b : RowV C) : Mat R C :=
  fun i => (∑ k : Fin K, X (ix2 (i 0) k) * W (ix2 k (i 1))) + b (i 1)
theorem lin_apply (X : Mat R K) (W : Mat K C) (b : RowV C) (r : Fin R) (j : Fin C) :
    lin X W b (ix2 r j) = (∑ k : Fin K, X (ix2 r k) * W (ix2 k j)) + b j := rfl

def relu (X : Mat R C) : Mat R C := fun i => max (X i) 0
def ff (X : Mat R C) (W1 : Mat C K) (b1 : RowV K) (W2 : Mat K C) (b2 : RowV C) : Mat R C :=
  lin (relu (lin X W1 b1)) W2 b2
def sigmoid (X : Mat R C) : Mat R C := fun i => Ideal.logistic (X i)
def add3 (A B D : Mat R C) : Mat R C := fun i => (A i + B i) + D i
def resid (X Y : Mat R C) : Mat R C := fun i => X i + Y i
def had (S B : Mat R C) : Mat R C := fun i => S i * B i
def gate (eps : EReal) (A num den hin : Mat R C) : Mat R C :=
  fun i => hin i + (A i + Ideal.div (num i) (den i + eps))

structure Params where
  h : Mat 50000 64
  e : Mat 800000 64
  Aw : Mat 64 64
  Bw : Mat 64 64
  Cw : Mat 64 64
  Dw : Mat 64 64
  Ew : Mat 64 64
  Ab : RowV 64
  Bb : RowV 64
  Cb : RowV 64
  Db : RowV 64
  Eb : RowV 64
  g1h : RowV 64
  g1e : RowV 64
  g2h : RowV 64
  g2e : RowV 64
  b1h : RowV 64
  b1e : RowV 64
  b2h : RowV 64
  b2e : RowV 64
  Wh1 : Mat 64 128
  bh1 : RowV 128
  Wh2 : Mat 128 64
  bh2 : RowV 64
  We1 : Mat 64 128
  be1 : RowV 128
  We2 : Mat 128 64
  be2 : RowV 64

structure Maps where
  gS : Mat 50000 64 → Mat 800000 64
  gD : Mat 50000 64 → Mat 800000 64
  sc : Mat 800000 64 → Mat 50000 64

section Layer
variable (P : Params) (M : Maps) (vN : Mat 50000 64 → RowV 64) (vE : Mat 800000 64 → RowV 64)

def hn1 : Mat 50000 64 := bn epsBN P.g1h P.b1h (mean nNodes P.h) (vN P.h) P.h
def en1 : Mat 800000 64 := bn epsBN P.g1e P.b1e (mean nEdges P.e) (vE P.e) P.e
def pA : Mat 50000 64 := lin (hn1 P vN) P.Aw P.Ab
def pB : Mat 50000 64 := lin (hn1 P vN) P.Bw P.Bb
def pC : Mat 50000 64 := lin (hn1 P vN) P.Cw P.Cb
def pD : Mat 50000 64 := lin (hn1 P vN) P.Dw P.Db
def pE : Mat 800000 64 := lin (en1 P vE) P.Ew P.Eb
def eNew : Mat 800000 64 := add3 (M.gS (pC P vN)) (M.gD (pD P vN)) (pE P vE)
def sig : Mat 800000 64 := sigmoid (eNew P M vN vE)
def e1 : Mat 800000 64 := resid P.e (eNew P M vN vE)
def msgs : Mat 800000 64 := had (sig P M vN vE) (M.gS (pB P vN))
def h1 : Mat 50000 64 := gate epsGate (pA P vN) (M.sc (msgs P M vN vE)) (M.sc (sig P M vN vE)) P.h
def hOut : Mat 50000 64 :=
  resid (h1 P M vN vE)
    (ff (bn epsBN P.g2h P.b2h (mean nNodes (h1 P M vN vE)) (vN (h1 P M vN vE)) (h1 P M vN vE)) P.Wh1 P.bh1 P.Wh2 P.bh2)
def eOut : Mat 800000 64 :=
  resid (e1 P M vN vE)
    (ff (bn epsBN P.g2e P.b2e (mean nEdges (e1 P M vN vE)) (vE (e1 P M vN vE)) (e1 P M vN vE)) P.We1 P.be1 P.We2 P.be2)

end Layer

def MatFinite (X : Mat R C) : Prop := ∀ i, X i ≠ ⊤ ∧ X i ≠ ⊥
def RowFinite (x : RowV C) : Prop := ∀ j, x j ≠ ⊤ ∧ x j ≠ ⊥

structure Params.Finite (P : Params) : Prop where
  h : MatFinite P.h
  e : MatFinite P.e
  Aw : MatFinite P.Aw
  Bw : MatFinite P.Bw
  Cw : MatFinite P.Cw
  Dw : MatFinite P.Dw
  Ew : MatFinite P.Ew
  Ab : RowFinite P.Ab
  Bb : RowFinite P.Bb
  Cb : RowFinite P.Cb
  Db : RowFinite P.Db
  Eb : RowFinite P.Eb
  g1h : RowFinite P.g1h
  g1e : RowFinite P.g1e
  g2h : RowFinite P.g2h
  g2e : RowFinite P.g2e
  b1h : RowFinite P.b1h
  b1e : RowFinite P.b1e
  b2h : RowFinite P.b2h
  b2e : RowFinite P.b2e
  Wh1 : MatFinite P.Wh1
  bh1 : RowFinite P.bh1
  Wh2 : MatFinite P.Wh2
  bh2 : RowFinite P.bh2
  We1 : MatFinite P.We1
  be1 : RowFinite P.be1
  We2 : MatFinite P.We2
  be2 : RowFinite P.be2

-- gathers keep rows real; a scatter-add of real (non-negative) rows into zero rows stays real (non-negative)
structure Maps.Sane (M : Maps) : Prop where
  gS : ∀ X, MatFinite X → MatFinite (M.gS X)
  gD : ∀ X, MatFinite X → MatFinite (M.gD X)
  sc : ∀ X, MatFinite X → MatFinite (M.sc X)
  sc_nonneg : ∀ X, MatFinite X → (∀ i, 0 ≤ X i) → ∀ i, 0 ≤ M.sc X i

end Gcn

end
-- ==== Proof.KDefs.lean ====
import proofs.«123720_j33586644255160_2_alg».proof.KernelIdeal
import proofs.«123720_j33586644255160_2_alg».proof.ReferenceIdeal
import proofs.«123720_j33586644255160_2_alg».proof.Proof.Spec

noncomputable section

open Idealize.ShloMosaic Idealize.SL.Sem

namespace Cert.KernelIdeal.KDefs

-- The layer's float arguments read off the initial contents `m` at `c`, a rank-one argument as a row.
def params (m : (ℓ : Loc Cert.KernelIdeal.nD Cert.KernelIdeal.τ Cert.KernelIdeal.sig) → Buf (Elt Ideal) ℓ) (c : Dev Cert.KernelIdeal.nD) : Gcn.Params :=
  let a (b : Ref sig .tc) := m ((c.tc : Thread nD τ).loc b)
  { h := a main_arg0
    e := a main_arg1
    Aw := a main_arg4
    Bw := a main_arg5
    Cw := a main_arg6
    Dw := a main_arg7
    Ew := a main_arg8
    Ab := Gcn.vec (a main_arg9)
    Bb := Gcn.vec (a main_arg10)
    Cb := Gcn.vec (a main_arg11)
    Db := Gcn.vec (a main_arg12)
    Eb := Gcn.vec (a main_arg13)
    g1h := Gcn.vec (a main_arg14)
    g1e := Gcn.vec (a main_arg15)
    g2h := Gcn.vec (a main_arg16)
    g2e := Gcn.vec (a main_arg17)
    b1h := Gcn.vec (a main_arg18)
    b1e := Gcn.vec (a main_arg19)
    b2h := Gcn.vec (a main_arg20)
    b2e := Gcn.vec (a main_arg21)
    Wh1 := a main_arg22
    bh1 := Gcn.vec (a main_arg23)
    Wh2 := a main_arg24
    bh2 := Gcn.vec (a main_arg25)
    We1 := a main_arg26
    be1 := Gcn.vec (a main_arg27)
    We2 := a main_arg28
    be2 := Gcn.vec (a main_arg29) }

end Cert.KernelIdeal.KDefs

namespace Cert.ReferenceIdeal.RDefs

def params (m : (ℓ : Loc Cert.ReferenceIdeal.nD Cert.ReferenceIdeal.τ Cert.ReferenceIdeal.sig) → Buf (Elt Ideal) ℓ) (c : Dev Cert.ReferenceIdeal.nD) : Gcn.Params :=
  let a (b : Ref sig .tc) := m ((c.tc : Thread nD τ).loc b)
  { h := a main_arg0
    e := a main_arg1
    Aw := a main_arg4
    Bw := a main_arg5
    Cw := a main_arg6
    Dw := a main_arg7
    Ew := a main_arg8
    Ab := Gcn.vec (a main_arg9)
    Bb := Gcn.vec (a main_arg10)
    Cb := Gcn.vec (a main_arg11)
    Db := Gcn.vec (a main_arg12)
    Eb := Gcn.vec (a main_arg13)
    g1h := Gcn.vec (a main_arg14)
    g1e := Gcn.vec (a main_arg15)
    g2h := Gcn.vec (a main_arg16)
    g2e := Gcn.vec (a main_arg17)
    b1h := Gcn.vec (a main_arg18)
    b1e := Gcn.vec (a main_arg19)
    b2h := Gcn.vec (a main_arg20)
    b2e := Gcn.vec (a main_arg21)
    Wh1 := a main_arg22
    bh1 := Gcn.vec (a main_arg23)
    Wh2 := a main_arg24
    bh2 := Gcn.vec (a main_arg25)
    We1 := a main_arg26
    be1 := Gcn.vec (a main_arg27)
    We2 := a main_arg28
    be2 := Gcn.vec (a main_arg29) }

end Cert.ReferenceIdeal.RDefs

end
-- ==== Proof.KKeep.lean ====
import proofs.«123720_j33586644255160_2_alg».proof.Proof.Gen.KernelIdeal.Frame
import Idealize.ShloMosaic.PureOps.Ideal

noncomputable section

namespace Cert.KernelIdeal.KKeep

open Idealize.ShloMosaic Idealize.ShloMosaic.TcCoe Idealize.ShloMosaic.Pipeline
open Cert.KernelIdeal Cert.KernelIdeal.Gen

variable (m : (ℓ : Loc nD τ sig) → Buf (Elt Ideal) ℓ) (ρ : Dev nD → PrngReg)

def Wseq : Nat → Dev nD → Valuation τ sig (Elt Ideal)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | _ => W17 m ρ

def wrAt : Nat → List (Ref sig .tc)
  | 0 => [main_v0, main_v1, main_v2, main_v3, main_v4, main_v5, main_v6, main_v7, main_v8, main_v9, main_v10,
          main_v11, main_v12, main_v13, main_v14, main_v15, main_v16]
  | 1 => [main_v17_0, main_v17_1]
  | 2 => [main_cst, main_v18, main_v19, main_cst_0, main_v20, main_v21, main_v22, main_v23, main_cst_1, main_v24, main_v25]
  | 3 => [main_v26_0, main_v26_1]
  | 4 => [main_cst_2, main_v27, main_v28, main_cst_3, main_v29, main_v30, main_v31, main_v32, main_cst_4, main_v33, main_v34]
  | 5 => [main_v35_0, main_v35_1, main_v35_2, main_v35_3]
  | 6 => [main_v36]
  | 7 => [main_c, main_v37, main_v38, main_c_5, main_v39, main_v40, main_v41, main_v42, main_v43,
          main_c_6, main_v44, main_v45, main_c_7, main_v46, main_v47, main_v48, main_v49, main_v50,
          main_c_8, main_v51, main_v52, main_c_9, main_v53, main_v54, main_v55, main_v56, main_v57]
  | 8 => [main_v58_0, main_v58_1, main_v58_2]
  | 9 => [main_cst_10, main_v59, main_v60, main_v61, main_cst_11, main_v62, main_v63, main_v64]
  | 10 => [main_v65]
  | 11 => [main_v66_0, main_v66_1]
  | 12 => [main_cst_12, main_v67, main_v68, main_cst_13, main_v69, main_v70, main_v71, main_v72, main_cst_14, main_v73, main_v74]
  | 13 => [main_v75_0, main_v75_1]
  | 14 => [main_cst_15, main_v76, main_v77, main_cst_16, main_v78, main_v79, main_v80, main_v81, main_cst_17, main_v82, main_v83]
  | 15 => [main_v84]
  | 16 => [main_v85]
  | _ => []

-- only a region's arrays change over it, and one that is not an output ends as it began
theorem region_keep {Λ₀ : Idealize.SL.Sem.Labels} {cfg : Cfg sig Λ₀} {c : Dev nD}
    (dat : Dat τ (Elt Ideal) Unit ℕ (UR sig nD τ) ℕ cfg c) (hinj : Function.Injective (arrRef cfg.spec))
    (V : Valuation τ sig (Elt Ideal)) {wr : List (Ref sig .tc)}
    (hA : ∀ w, dat.A w = V (Proc.devRef .tc (arrRef cfg.spec w)))
    (hin : ∀ w, arrRef cfg.spec w ∉ wr → (cfg.win w).isOut = false) (b : Ref sig .tc) (hb : b ∉ wr) :
    withArrays cfg.spec c V (fun w => dat.arrAt w cfg.N) (Proc.devRef .tc b) = V (Proc.devRef .tc b) := by
  by_cases h : ∃ w, arrRef cfg.spec w = b
  · obtain ⟨w, rfl⟩ := h
    exact (withArrays_arr cfg.spec hinj c V _ w).trans ((dat.arrAt_in w (hin w hb) _).trans (hA w))
  · exact withArrays_of_ne cfg.spec c V _ b fun w e => h ⟨w, e⟩

theorem keep1 (k : Nat) (hk : k < 17) (c : Dev nD) (b : Ref sig .tc) (hb : b ∉ wrAt k) :
    Wseq m ρ (k + 1) c (Proc.devRef .tc b) = Wseq m ρ k c (Proc.devRef .tc b) := by
  match k, hk with
  | 0, _ | 2, _ | 4, _ | 7, _ | 9, _ | 12, _ | 14, _ =>
    -- each operation of the line writes one buffer, and `b` is none of them
    refine StableHlo.after_of_forall_not_mem (b := Proc.devRef .tc b) _ _ (List.forall_iff_forall_mem.mp ?_)
    simp only [wrAt, List.mem_cons, List.mem_nil_iff, not_or, or_false] at hb
    simp only [hostOps0, hostOps1, hostOps2, hostOps4, hostOps5, hostOps7, hostOps8, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton, (Proc.devRef_injective _).eq_iff]
    exact hb
  | 1, _ => exact region_keep (dat0 (V1 m ρ) c) launch0.win.arr_inj _ (A_eq0 (V1 m ρ) c) (by decide) b hb
  | 3, _ => exact region_keep (dat1 (V3 m ρ) c) launch1.win.arr_inj _ (A_eq1 (V3 m ρ) c) (by decide) b hb
  | 5, _ => exact region_keep (dat2 (V5 m ρ) c) launch2.win.arr_inj _ (A_eq2 (V5 m ρ) c) (by decide) b hb
  | 6, _ => exact region_keep (dat3 (V6 m ρ) c) launch3.win.arr_inj _ (A_eq3 (V6 m ρ) c) (by decide) b hb
  | 8, _ => exact region_keep (dat4 (V8 m ρ) c) launch4.win.arr_inj _ (A_eq4 (V8 m ρ) c) (by decide) b hb
  | 10, _ => exact region_keep (dat5 (V10 m ρ) c) launch5.win.arr_inj _ (A_eq5 (V10 m ρ) c) (by decide) b hb
  | 11, _ => exact region_keep (dat6 (V11 m ρ) c) launch6.win.arr_inj _ (A_eq6 (V11 m ρ) c) (by decide) b hb
  | 13, _ => exact region_keep (dat7 (V13 m ρ) c) launch7.win.arr_inj _ (A_eq7 (V13 m ρ) c) (by decide) b hb
  | 15, _ => exact region_keep (dat8 (V15 m ρ) c) launch8.win.arr_inj _ (A_eq8 (V15 m ρ) c) (by decide) b hb
  | 16, _ => exact region_keep (dat9 (V16 m ρ) c) launch9.win.arr_inj _ (A_eq9 (V16 m ρ) c) (by decide) b hb
  | k + 17, hk => exact absurd hk (by omega)

theorem keep (j k : Nat) (hjk : j ≤ k) (hk : k ≤ 17) (c : Dev nD) (b : Ref sig .tc)
    (hb : b ∉ (List.range' j (k - j)).flatMap wrAt) :
    Wseq m ρ k c (Proc.devRef .tc b) = Wseq m ρ j c (Proc.devRef .tc b) := by
  obtain ⟨d, rfl⟩ := Nat.exists_eq_add_of_le hjk
  rw [Nat.add_sub_cancel_left] at hb
  induction d with
  | zero => rfl
  | succ d ih =>
    rw [List.range'_concat, List.flatMap_append, List.mem_append, not_or] at hb
    exact (keep1 m ρ (j + d) (by omega) c b (by
      simpa only [List.flatMap_cons, List.flatMap_nil, List.append_nil, one_mul] using hb.2)).trans
        (ih (Nat.le_add_right _ _) (by omega) hb.1)

end Cert.KernelIdeal.KKeep

end
-- ==== Proof.BlockColSum.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.BlockColSum

open Idealize.ShloMosaic Idealize.ShloMosaic.ValueIdx
open scoped BigOperators

variable {N B R C : ℕ}

theorem hz : (![0, 0] : Fin 2 → Nat) = fun _ => 0 := funext fun a => by fin_cases a <;> rfl

-- Reducing the rows away leaves, in column `j`, the sum of that column.
theorem colRed_apply (x : FVec Ideal ⟨2, ![B, C]⟩ .f32) (h : (⟨2, ![B, C]⟩ : Shape).Reduces [0] ⟨1, ![C]⟩)
    (hφ : FKind.Formats .f32) (hacc : (0x00000000#32 : BitVec 32) = FKind.add.neutral .f32 hφ) (j : Fin C) :
    multiReduction (F := Ideal) .add [0] ⟨1, ![C]⟩ x 0x00000000#32 h hφ hacc (ix1 j) = ∑ p : Fin B, x (ix2 p j) :=
  (Ideal.multiReduction_add_single x _ h hφ hacc (ix1 j)).trans
    (Finset.sum_congr rfl fun p _ => congrArg x (Shape.idx_ext₂ rfl rfl))

-- A row plus the column sums of `y`, in column `j`.
theorem addRed_apply (v : FVec Ideal ⟨2, ![1, C]⟩ .f32) (y : FVec Ideal ⟨2, ![B, C]⟩ .f32)
    (h1 : (⟨2, ![1, C]⟩ : Shape).ShapeCasts ⟨2, ![1, C]⟩) (h : (⟨2, ![B, C]⟩ : Shape).Reduces [0] ⟨1, ![C]⟩)
    (hφ : FKind.Formats .f32) (hacc : (0x00000000#32 : BitVec 32) = FKind.add.neutral .f32 hφ)
    (h2 : (⟨1, ![C]⟩ : Shape).ShapeCasts ⟨2, ![1, C]⟩) (j : Fin C) :
    addf (shapeCast ⟨2, ![1, C]⟩ v h1)
        (shapeCast ⟨2, ![1, C]⟩ (multiReduction (F := Ideal) .add [0] ⟨1, ![C]⟩ y 0x00000000#32 h hφ hacc) h2) (ix2 0 j)
      = v (ix2 0 j) + ∑ p : Fin B, y (ix2 p j) :=
  (addf_apply _ _ _).trans (congrArg₂ (· + ·) (congrFun (shapeCast_self v h1) _)
    ((shapeCast_a_1a_apply _ h2 0 j).trans (colRed_apply y h hφ hacc j)))

theorem acc_run (b : (n : ℕ) → n < N → Fin B → EReal) (a : (n : ℕ) → n < N → EReal) (h0 : ∀ h, a 0 h = 0 + ∑ p, b 0 h p)
    (hs : ∀ n h, a (n + 1) h = a n (Nat.lt_of_succ_lt h) + ∑ p, b (n + 1) h p) :
    ∀ m (h : m < N), a m h = ∑ t : Fin (m + 1), ∑ p, b t.val (by omega) p
  | 0, h => by rw [h0, zero_add, Fin.sum_univ_one]; rfl
  | m + 1, h => by rw [Fin.sum_univ_castSucc, hs, acc_run b a h0 hs m (Nat.lt_of_succ_lt h)]; rfl

-- Adding `f` summed over block `n` at point `n`, from zero, gives after the `N` blocks of `B` rows `f` summed over all `N * B` rows.
theorem acc_eq_sum (hR : N * B = R) (f : EReal → EReal) (X : Fin R → EReal) (b : (n : ℕ) → n < N → Fin B → EReal)
    (hb : ∀ n h (p : Fin B) (hr : n * B + p.val < R), b n h p = X ⟨n * B + p.val, hr⟩)
    (a : (n : ℕ) → n < N → EReal) (h0 : ∀ h, a 0 h = 0 + ∑ p, f (b 0 h p))
    (hs : ∀ n h, a (n + 1) h = a n (Nat.lt_of_succ_lt h) + ∑ p, f (b (n + 1) h p))
    (n : ℕ) (hn : n + 1 = N) : a n (hn ▸ n.lt_succ_self) = ∑ r, f (X r) := by
  subst hR hn
  rw [acc_run (fun n h p => f (b n h p)) a h0 hs n, ← (finProdFinEquiv (m := n + 1) (n := B)).sum_comp fun r => f (X r),
    Fintype.sum_prod_type]
  refine Finset.sum_congr rfl fun t _ => Finset.sum_congr rfl fun p _ => ?_
  have hr : t.val * B + p.val < (n + 1) * B := by
    have := t.isLt; have := p.isLt; have := Nat.succ_mul t.val B; have := Nat.mul_le_mul_right B (Nat.succ_le_of_lt t.isLt); omega
  exact congrArg f ((hb _ _ p hr).trans (congrArg X (Fin.ext (by show t.val * B + p.val = p.val + B * t.val; rw [Nat.add_comm, Nat.mul_comm]))))

-- Two rows updated block by block from zero rows hold, after the `N` blocks, the column sums and column sums of squares of all rows.
theorem stats_total (hR : N * B = R) (X : FVec Ideal ⟨2, ![R, C]⟩ .f32) (blk : Fin N → FVec Ideal ⟨2, ![B, C]⟩ .f32)
    (hblk : ∀ t p j (h : t.val * B + p.val < R), blk t (ix2 p j) = X (ix2 ⟨t.val * B + p.val, h⟩ j))
    (pS pQ : FVec Ideal ⟨2, ![B, C]⟩ .f32 → FVec Ideal ⟨2, ![1, C]⟩ .f32 → FVec Ideal ⟨2, ![1, C]⟩ .f32)
    (hp : ∀ x v j, pS x v (ix2 0 j) = v (ix2 0 j) + ∑ p : Fin B, x (ix2 p j)
      ∧ pQ x v (ix2 0 j) = v (ix2 0 j) + ∑ p : Fin B, x (ix2 p j) * x (ix2 p j))
    (z1 z2 : FVec Ideal ⟨2, ![1, C]⟩ .f32) (hz0 : ∀ j, z1 (ix2 0 j) = 0 ∧ z2 (ix2 0 j) = 0)
    (o : (n : ℕ) → n < N → FVec Ideal ⟨2, ![1, C]⟩ .f32 × FVec Ideal ⟨2, ![1, C]⟩ .f32)
    (hA : ∀ h, o 0 h = (pS (blk ⟨0, h⟩) z1, pQ (blk ⟨0, h⟩) z2))
    (hB : ∀ n h, o (n + 1) h
      = (pS (blk ⟨n + 1, h⟩) (o n (Nat.lt_of_succ_lt h)).1, pQ (blk ⟨n + 1, h⟩) (o n (Nat.lt_of_succ_lt h)).2))
    (n : ℕ) (hn : n + 1 = N) (j : Fin C) :
    (o n (hn ▸ n.lt_succ_self)).1 (ix2 0 j) = ∑ r, X (ix2 r j)
      ∧ (o n (hn ▸ n.lt_succ_self)).2 (ix2 0 j) = ∑ r, X (ix2 r j) * X (ix2 r j) :=
  ⟨acc_eq_sum hR (fun e => e) (fun r => X (ix2 r j)) (fun n h p => blk ⟨n, h⟩ (ix2 p j)) (fun n h p hr => hblk ⟨n, h⟩ p j hr)
      (fun n h => (o n h).1 (ix2 0 j)) (fun h => by rw [hA]; dsimp only; rw [(hp _ _ j).1, (hz0 j).1]) (fun n h => by rw [hB]; dsimp only; rw [(hp _ _ j).1]) n hn,
    acc_eq_sum hR (fun e => e * e) (fun r => X (ix2 r j)) (fun n h p => blk ⟨n, h⟩ (ix2 p j)) (fun n h p hr => hblk ⟨n, h⟩ p j hr)
      (fun n h => (o n h).2 (ix2 0 j)) (fun h => by rw [hA]; dsimp only; rw [(hp _ _ j).2, (hz0 j).2]) (fun n h => by rw [hB]; dsimp only; rw [(hp _ _ j).2]) n hn⟩

-- Every index of an array lies in the block that starts at zero and has the array's own sizes.
theorem mem_access_unit_zero {sig : RefSig} {κ : Kind} (b : Ref sig κ) {off : Fin b.ty.shape.rank → Nat} (h : off = fun _ => 0)
    (inb : ∀ a, off a + b.ty.shape.size a ≤ b.ty.shape.size a) (i : b.ty.shape.Idx) :
    i ∈ ((Memref.whole b).access (Rect.unit off b.ty.shape.size inb) : View sig κ _ _ _).set := by
  subst h; exact (Memref.set_access_whole b).symm ▸ Finset.mem_univ i

end Cert.BlockColSum

end
-- ==== Proof.KReg0.lean ====
import proofs.«123720_j33586644255160_2_alg».proof.Proof.Gen.KernelIdeal.Frame
import proofs.«123720_j33586644255160_2_alg».proof.Proof.Spec
import proofs.«123720_j33586644255160_2_alg».proof.Proof.BlockColSum

set_option maxRecDepth 16384

noncomputable section

namespace Cert.KernelIdeal.KReg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Idealize.ShloMosaic.ValueIdx Cert.BlockColSum Gen

variable (V : (c : Dev nD) → (b : Ref sig .tc) → Buf (Elt Ideal) ((c : Thread nD τ).loc b))

section Pieces
variable {F : FTy → Type} [FloatOps F] {c : Dev nD} {i : grid0.Coords} {a1 : Memref sig .tc .vmem S10000x64 .f32} {h1 : a1.IsWhole}
  {a2 : Memref sig .tc .vmem S1x64 .f32} {h2 : a2.IsWhole} {a3 : Memref sig .tc .vmem S1x64 .f32} {h3 : a3.IsWhole}
  {x : Vec F S10000x64 .f32}

-- After the first block the rows hold the updates of the zero row.
theorem out_A (hc : cond0_0 i) :
    out0_A_1 c i a1 h1 a2 h2 a3 h3 hc x = k0_pay3 x (k0_pay1 (F := F))
    ∧ out0_A_2 c i a1 h1 a2 h2 a3 h3 hc x = k0_pay4 x (k0_pay2 (F := F)) := by
  unfold out0_A_1 out0_A_2
  rw [View.read_writes_eq_canon _ _ _ (cover0_A_1 c i a1 h1 a2 h2 a3 h3 hc x),
    View.read_writes_eq_canon _ _ _ (cover0_A_2 c i a1 h1 a2 h2 a3 h3 hc x)]
  unfold kernelRun0_A
  dsimp only
  sl_unfold_words
  constructor <;>
  · rw [View.canon_cons_unit_zero (S := S1x64) hz, View.readCov_unit_zero (S := S1x64) _ hz]
    simp only [View.readAt_eq_ld, h1.read_unread, View.ld_unit_zero (S := S10000x64) hz]

-- After a later block they hold the updates of what they held.
theorem out_B (hc : ¬cond0_0 i) (xo1 xo2 : Vec F S1x64 .f32) :
    out0_B_1 c i a1 h1 a2 h2 a3 h3 hc x xo1 xo2 = k0_pay3 x xo1
    ∧ out0_B_2 c i a1 h1 a2 h2 a3 h3 hc x xo1 xo2 = k0_pay4 x xo2 := by
  unfold out0_B_1 out0_B_2
  rw [View.read_writes_eq_canon _ _ _ (cover0_B_1 c i a1 h1 a2 h2 a3 h3 hc x xo1 xo2),
    View.read_writes_eq_canon _ _ _ (cover0_B_2 c i a1 h1 a2 h2 a3 h3 hc x xo1 xo2)]
  unfold kernelRun0_B
  dsimp only
  sl_unfold_words
  constructor <;>
  · rw [View.canon_unit_zero hz]
    simp only [View.readAt_eq_ld, h1.read_unread, h2.read_unread, h3.read_unread, View.ld_unit_zero (S := S10000x64) hz,
      View.ld_unit_zero (S := S1x64) hz]

end Pieces

-- The two updates add to a row, column by column, the block's column sums and column sums of squares.
theorem pay_apply (x : FVec Ideal S10000x64 .f32) (v : FVec Ideal S1x64 .f32) (j : Fin 64) :
    k0_pay3 (F := Ideal) x v (ix2 0 j) = v (ix2 0 j) + ∑ p : Fin 10000, x (ix2 p j)
    ∧ k0_pay4 (F := Ideal) x v (ix2 0 j) = v (ix2 0 j) + ∑ p : Fin 10000, x (ix2 p j) * x (ix2 p j) :=
  ⟨addRed_apply v x _ _ _ _ _ j, addRed_apply v (mulf x x) _ _ _ _ _ j⟩

theorem pay_zero (j : Fin 64) : k0_pay1 (F := Ideal) (ix2 0 j) = 0 ∧ k0_pay2 (F := Ideal) (ix2 0 j) = 0 :=
  ⟨Ideal.ofBits_zero_f32, Ideal.ofBits_zero_f32⟩

abbrev xarr (c : Dev nD) : FVec Ideal S50000x64 .f32 := V c (Pipeline.arrRef spec0 0)
abbrev xblk (c : Dev nD) (t : Fin cfg0.N) : FVec Ideal S10000x64 .f32 := iblk0 V c 0 t
abbrev res (c : Dev nD) : FVec Ideal S1x64 .f32 × FVec Ideal S1x64 .f32 := outsAt0 V c 4 t0_4.isLt

theorem idx_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

-- Row `p` of block `t` is row `10000 t + p` of the matrix.
theorem xblk_apply (c : Dev nD) (t : Fin cfg0.N) (p : Fin 10000) (j : Fin 64) (h : t.val * 10000 + p.val < 50000) :
    xblk V c t (ix2 p j) = xarr V c (ix2 ⟨t.val * 10000 + p.val, h⟩ j) := by
  unfold xblk iblk0
  rw [View.read_apply]
  show V c (Pipeline.arrRef spec0 0) _ = V c (Pipeline.arrRef spec0 0) _
  congr 1
  exact Shape.idx_ext₂ (by show win0_0.index t 0 * 10000 + 1 * p.val = t.val * 10000 + p.val; rw [(idx_facts t).1]; omega)
    (by show win0_0.index t 1 * 64 + 1 * j.val = j.val; rw [(idx_facts t).2]; omega)

-- After the last block the rows hold the column sums and the column sums of squares of the whole matrix.
theorem stats (c : Dev nD) (j : Fin 64) :
    (res V c).1 (ix2 0 j) = ∑ r : Fin 50000, xarr V c (ix2 r j)
    ∧ (res V c).2 (ix2 0 j) = ∑ r : Fin 50000, xarr V c (ix2 r j) * xarr V c (ix2 r j) :=
  stats_total (congrArg (· * 10000) N_0) (xarr V c) (xblk V c) (xblk_apply V c) (k0_pay3 (F := Ideal)) (k0_pay4 (F := Ideal)) pay_apply
    (k0_pay1 (F := Ideal)) (k0_pay2 (F := Ideal)) pay_zero (outsAt0 V c) (fun h => by rw [outsAt0_A V c ⟨0, h⟩ rfl, (out_A _).1, (out_A _).2])
    (fun n h => by
      rw [outsAt0_B V c ⟨n + 1, h⟩ (by have hN := N_0; dsimp only; omega), (out_B _ _ _).1, (out_B _ _ _).2]; rfl) 4 N_0.symm j

theorem hw1 : (fun a => win0_1.index t0_4 a * main_v17_0.ty.shape.size a) = fun _ => 0 := funext fun a => by fin_cases a <;> decide
theorem hw2 : (fun a => win0_2.index t0_4 a * main_v17_1.ty.shape.size a) = fun _ => 0 := funext fun a => by fin_cases a <;> decide

theorem last_eq (t : Fin cfg0.N) (h : t.val % 5 = 4) : t = t0_4 :=
  Fin.ext (by have := t.isLt; have hN : cfg0.N = 5 := N_0; show t.val = 4; omega)

-- Each array ends holding the row left after the last block.
theorem final1 (c : Dev nD) : (dat0 V c).arrAt 1 cfg0.N = (res V c).1 :=
  (dat0 V c).arrAt_eq_of_cover 1 _ (fun t hf => by
      obtain rfl := last_eq t ((flush0_1 t).mp hf)
      show (cfg0.win 1).cut (grid0.coords t0_4) ((dat0 V c).after 1 t0_4) = _
      rw [after0_1]
      exact (Memref.read_access_unit_zero (Elt Ideal) main_v17_0 hw1 (fun a => by rw [congrFun hw1 a]; simp) (res V c).1).symm)
    fun i => ⟨t0_4, (flush0_1 _).mpr rfl, mem_access_unit_zero main_v17_0 hw1 (fun a => by rw [congrFun hw1 a]; simp) i⟩

theorem final2 (c : Dev nD) : (dat0 V c).arrAt 2 cfg0.N = (res V c).2 :=
  (dat0 V c).arrAt_eq_of_cover 2 _ (fun t hf => by
      obtain rfl := last_eq t ((flush0_2 t).mp hf)
      show (cfg0.win 2).cut (grid0.coords t0_4) ((dat0 V c).after 2 t0_4) = _
      rw [after0_2]
      exact (Memref.read_access_unit_zero (Elt Ideal) main_v17_1 hw2 (fun a => by rw [congrFun hw2 a]; simp) (res V c).2).symm)
    fun i => ⟨t0_4, (flush0_2 _).mpr rfl, mem_access_unit_zero main_v17_1 hw2 (fun a => by rw [congrFun hw2 a]; simp) i⟩

theorem sum_eq (c : Dev nD) :
    Gcn.row ((Gen.dat0 (F := Ideal) V c).arrAt 1 cfg0.N : Gcn.Mat 1 64)
      = Gcn.colSum (V c (Pipeline.arrRef spec0 0) : Gcn.Mat 50000 64) := by
  funext j
  unfold Gcn.row Gcn.colSum
  rw [final1]
  exact (stats V c j).1

theorem sumsq_eq (c : Dev nD) :
    Gcn.row ((Gen.dat0 (F := Ideal) V c).arrAt 2 cfg0.N : Gcn.Mat 1 64)
      = Gcn.colSumSq (V c (Pipeline.arrRef spec0 0) : Gcn.Mat 50000 64) := by
  funext j
  unfold Gcn.row Gcn.colSumSq
  rw [final2]
  exact (stats V c j).2

end Cert.KernelIdeal.KReg0

end
-- ==== Proof.KReg1.lean ====
import proofs.«123720_j33586644255160_2_alg».proof.Proof.Gen.KernelIdeal.Frame
import proofs.«123720_j33586644255160_2_alg».proof.Proof.Spec
import proofs.«123720_j33586644255160_2_alg».proof.Proof.BlockColSum

set_option maxRecDepth 16384

noncomputable section

namespace Cert.KernelIdeal.KReg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Idealize.ShloMosaic.ValueIdx Cert.BlockColSum Gen

variable (V : (c : Dev nD) → (b : Ref sig .tc) → Buf (Elt Ideal) ((c : Thread nD τ).loc b))

section Pieces
variable {F : FTy → Type} [FloatOps F] {c : Dev nD} {i : grid1.Coords} {a1 : Memref sig .tc .vmem S8000x64 .f32} {h1 : a1.IsWhole}
  {a2 : Memref sig .tc .vmem S1x64 .f32} {h2 : a2.IsWhole} {a3 : Memref sig .tc .vmem S1x64 .f32} {h3 : a3.IsWhole}
  {x : Vec F S8000x64 .f32}

-- After the first block the rows hold the updates of the zero row.
theorem out_A (hc : cond1_0 i) :
    out1_A_1 c i a1 h1 a2 h2 a3 h3 hc x = k1_pay3 x (k1_pay1 (F := F))
    ∧ out1_A_2 c i a1 h1 a2 h2 a3 h3 hc x = k1_pay4 x (k1_pay2 (F := F)) := by
  unfold out1_A_1 out1_A_2
  rw [View.read_writes_eq_canon _ _ _ (cover1_A_1 c i a1 h1 a2 h2 a3 h3 hc x),
    View.read_writes_eq_canon _ _ _ (cover1_A_2 c i a1 h1 a2 h2 a3 h3 hc x)]
  unfold kernelRun1_A
  dsimp only
  sl_unfold_words
  constructor <;>
  · rw [View.canon_cons_unit_zero (S := S1x64) hz, View.readCov_unit_zero (S := S1x64) _ hz]
    simp only [View.readAt_eq_ld, h1.read_unread, View.ld_unit_zero (S := S8000x64) hz]

-- After a later block they hold the updates of what they held.
theorem out_B (hc : ¬cond1_0 i) (xo1 xo2 : Vec F S1x64 .f32) :
    out1_B_1 c i a1 h1 a2 h2 a3 h3 hc x xo1 xo2 = k1_pay3 x xo1
    ∧ out1_B_2 c i a1 h1 a2 h2 a3 h3 hc x xo1 xo2 = k1_pay4 x xo2 := by
  unfold out1_B_1 out1_B_2
  rw [View.read_writes_eq_canon _ _ _ (cover1_B_1 c i a1 h1 a2 h2 a3 h3 hc x xo1 xo2),
    View.read_writes_eq_canon _ _ _ (cover1_B_2 c i a1 h1 a2 h2 a3 h3 hc x xo1 xo2)]
  unfold kernelRun1_B
  dsimp only
  sl_unfold_words
  constructor <;>
  · rw [View.canon_unit_zero hz]
    simp only [View.readAt_eq_ld, h1.read_unread, h2.read_unread, h3.read_unread, View.ld_unit_zero (S := S8000x64) hz,
      View.ld_unit_zero (S := S1x64) hz]

end Pieces

-- The two updates add to a row, column by column, the block's column sums and column sums of squares.
theorem pay_apply (x : FVec Ideal S8000x64 .f32) (v : FVec Ideal S1x64 .f32) (j : Fin 64) :
    k1_pay3 (F := Ideal) x v (ix2 0 j) = v (ix2 0 j) + ∑ p : Fin 8000, x (ix2 p j)
    ∧ k1_pay4 (F := Ideal) x v (ix2 0 j) = v (ix2 0 j) + ∑ p : Fin 8000, x (ix2 p j) * x (ix2 p j) :=
  ⟨addRed_apply v x _ _ _ _ _ j, addRed_apply v (mulf x x) _ _ _ _ _ j⟩

theorem pay_zero (j : Fin 64) : k1_pay1 (F := Ideal) (ix2 0 j) = 0 ∧ k1_pay2 (F := Ideal) (ix2 0 j) = 0 :=
  ⟨Ideal.ofBits_zero_f32, Ideal.ofBits_zero_f32⟩

theorem last_lt : 99 < cfg1.N := by rw [show cfg1.N = 100 from N_1]; decide

abbrev tl : Fin cfg1.N := ⟨99, last_lt⟩
abbrev xarr (c : Dev nD) : FVec Ideal S800000x64 .f32 := V c (Pipeline.arrRef spec1 0)
abbrev xblk (c : Dev nD) (t : Fin cfg1.N) : FVec Ideal S8000x64 .f32 := iblk1 V c 0 t
abbrev res (c : Dev nD) : FVec Ideal S1x64 .f32 × FVec Ideal S1x64 .f32 := outsAt1 V c tl.val tl.isLt

theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

-- Row `p` of block `t` is row `8000 t + p` of the matrix.
theorem xblk_apply (c : Dev nD) (t : Fin cfg1.N) (p : Fin 8000) (j : Fin 64) (h : t.val * 8000 + p.val < 800000) :
    xblk V c t (ix2 p j) = xarr V c (ix2 ⟨t.val * 8000 + p.val, h⟩ j) := by
  unfold xblk iblk1
  rw [View.read_apply]
  show V c (Pipeline.arrRef spec1 0) _ = V c (Pipeline.arrRef spec1 0) _
  congr 1
  exact Shape.idx_ext₂ (by show win1_0.index t 0 * 8000 + 1 * p.val = t.val * 8000 + p.val; rw [(idx_facts t).1]; omega)
    (by show win1_0.index t 1 * 64 + 1 * j.val = j.val; rw [(idx_facts t).2]; omega)

-- After the last block the rows hold the column sums and the column sums of squares of the whole matrix.
theorem stats (c : Dev nD) (j : Fin 64) :
    (res V c).1 (ix2 0 j) = ∑ r : Fin 800000, xarr V c (ix2 r j)
    ∧ (res V c).2 (ix2 0 j) = ∑ r : Fin 800000, xarr V c (ix2 r j) * xarr V c (ix2 r j) := by
  have := stats_total (congrArg (· * 8000) N_1) (xarr V c) (xblk V c) (xblk_apply V c) (k1_pay3 (F := Ideal)) (k1_pay4 (F := Ideal)) pay_apply
    (k1_pay1 (F := Ideal)) (k1_pay2 (F := Ideal)) pay_zero (outsAt1 V c) (fun h => by rw [outsAt1_A V c ⟨0, h⟩ rfl, (out_A _).1, (out_A _).2])
    (fun n h => by
      rw [outsAt1_B V c ⟨n + 1, h⟩ (by have hN := N_1; dsimp only; omega), (out_B _ _ _).1, (out_B _ _ _).2]; rfl) 99 N_1.symm j
  exact this

theorem hw1 : (fun a => win1_1.index tl a * main_v26_0.ty.shape.size a) = fun _ => 0 := funext fun a => by fin_cases a <;> decide
theorem hw2 : (fun a => win1_2.index tl a * main_v26_1.ty.shape.size a) = fun _ => 0 := funext fun a => by fin_cases a <;> decide

theorem last_eq (t : Fin cfg1.N) (h : t.val % 100 = 99) : t = tl :=
  Fin.ext (by have := t.isLt; have hN : cfg1.N = 100 := N_1; show t.val = 99; omega)

-- A row read back through a block that is the whole of its array is the row itself.
theorem whole1 (G : FVec Ideal S1x64 .f32) :
    (cfg1.win 1).cut (grid1.coords tl) G = ((cfg1.win 1).blk tl).view.read (Elt Ideal) G :=
  (Memref.read_access_unit_zero (Elt Ideal) main_v26_0 hw1 (fun a => by rw [congrFun hw1 a]; simp) G).symm

theorem whole2 (G : FVec Ideal S1x64 .f32) :
    (cfg1.win 2).cut (grid1.coords tl) G = ((cfg1.win 2).blk tl).view.read (Elt Ideal) G :=
  (Memref.read_access_unit_zero (Elt Ideal) main_v26_1 hw2 (fun a => by rw [congrFun hw2 a]; simp) G).symm

-- Each array ends holding the row left after the last block.
theorem final1 (c : Dev nD) : (dat1 V c).arrAt 1 cfg1.N = (res V c).1 :=
  (dat1 V c).arrAt_eq_of_cover 1 _ (fun t hf => by
      obtain rfl := last_eq t ((flush1_1 t).mp hf)
      show (cfg1.win 1).cut (grid1.coords tl) ((dat1 V c).after 1 tl) = _
      rw [after1_1]
      exact whole1 _)
    fun i => ⟨tl, (flush1_1 _).mpr rfl, mem_access_unit_zero main_v26_0 hw1 (fun a => by rw [congrFun hw1 a]; simp) i⟩

theorem final2 (c : Dev nD) : (dat1 V c).arrAt 2 cfg1.N = (res V c).2 :=
  (dat1 V c).arrAt_eq_of_cover 2 _ (fun t hf => by
      obtain rfl := last_eq t ((flush1_2 t).mp hf)
      show (cfg1.win 2).cut (grid1.coords tl) ((dat1 V c).after 2 tl) = _
      rw [after1_2]
      exact whole2 _)
    fun i => ⟨tl, (flush1_2 _).mpr rfl, mem_access_unit_zero main_v26_1 hw2 (fun a => by rw [congrFun hw2 a]; simp) i⟩

theorem sum_eq (c : Dev nD) :
    Gcn.row ((Gen.dat1 (F := Ideal) V c).arrAt 1 cfg1.N : Gcn.Mat 1 64)
      = Gcn.colSum (V c (Pipeline.arrRef spec1 0) : Gcn.Mat 800000 64) := by
  funext j
  unfold Gcn.row Gcn.colSum
  rw [final1]
  exact (stats V c j).1

theorem sumsq_eq (c : Dev nD) :
    Gcn.row ((Gen.dat1 (F := Ideal) V c).arrAt 2 cfg1.N : Gcn.Mat 1 64)
      = Gcn.colSumSq (V c (Pipeline.arrRef spec1 0) : Gcn.Mat 800000 64) := by
  funext j
  unfold Gcn.row Gcn.colSumSq
  rw [final2]
  exact (stats V c j).2

end Cert.KernelIdeal.KReg1

end
-- ==== Proof.BlockLinear.lean ====
import proofs.«123720_j33586644255160_2_alg».proof.Proof.Spec
import Idealize.ShloMosaic.Lib.Pipeline.Value
import Idealize.ShloMosaic.Lib.ValueLayout
import Idealize.ShloMosaic.PureOps.Ideal.Laws

noncomputable section

namespace Cert.BlockLinear

open Idealize.ShloMosaic Idealize.ShloMosaic.ValueIdx
open scoped BigOperators

theorem zeroOffsets : (![0, 0] : Fin 2 → Nat) = fun _ => 0 := funext fun a => by fin_cases a <;> rfl

/-- A load of a whole rank-two value reads the value. -/
theorem ld0 {m n : Nat} {Val : EltTy → Type} {e : EltTy} (X : (⟨2, ![m, n]⟩ : Shape).Idx → Val e) (inb) :
    View.ld X (Rect.unit ![0, 0] (⟨2, ![m, n]⟩ : Shape).size inb) = X := View.ld_unit_zero zeroOffsets inb X

/-- At block zero an index of the block is the same index of the array. -/
theorem idx_eq {m n : Nat} (e x : (⟨2, ![m, n]⟩ : Shape).Idx)
    (he0 : (e 0).val = 0 * m + 1 * (x 0).val) (he1 : (e 1).val = 0 * n + 1 * (x 1).val) : e = x :=
  Shape.idx_ext₂ (by omega) (by omega)

variable {M : Nat}

/-- A one-axis contraction re-indexed by its coordinate. -/
theorem product_apply {K N : Nat} {φ₁ φ₂ : FTy} (D : DotDims ⟨2, ![M, K]⟩ ⟨2, ![K, N]⟩ ⟨2, ![M, N]⟩)
    (hD : D = DotDims.plain M K N) (L : FVec Ideal ⟨2, ![M, K]⟩ φ₁) (R : FVec Ideal ⟨2, ![K, N]⟩ φ₂) (p : Fin M) (q : Fin N) :
    matmul D none L R (constant (F := Ideal) ⟨2, ![M, N]⟩ .f32 0x00000000#32) (ix2 p q) = ∑ k : Fin K, L (ix2 p k) * R (ix2 k q) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  congr 2 <;> funext a <;> apply Fin.ext <;> match a with
    | ⟨0, _⟩ => simp [DotDims.lhsIdx, DotDims.rhsIdx, DotDims.plain] <;> first | rfl | exact hk
    | ⟨1, _⟩ => simp [DotDims.lhsIdx, DotDims.rhsIdx, DotDims.plain] <;> first | rfl | exact hk

/-- Entry j of a normalised row block times a weight plus a bias reads one row of the array the block is cut from. -/
theorem proj_at {R : Nat} (D : DotDims ⟨2, ![M, 64]⟩ ⟨2, ![64, 64]⟩ ⟨2, ![M, 64]⟩) (hD : D = DotDims.plain M 64 64)
    (hs : (⟨2, ![1, 64]⟩ : Shape).ShapeCasts ⟨2, ![1, 64]⟩) (hb : (⟨2, ![1, 64]⟩ : Shape).Broadcasts ⟨2, ![M, 64]⟩)
    (ht : FTy.bits .bf16 < FTy.bits .f32) (x0 : Gcn.Mat M 64) (xg xm xv xb bias : Gcn.Mat 1 64) (W : Gcn.Mat 64 64)
    (H : Gcn.Mat R 64) (T : Nat)
    (hx : ∀ (p : Fin M) (k : Fin 64) (r : Fin R), r.val = T * M + p.val → x0 (ix2 p k) = H (ix2 r k))
    (j : (⟨2, ![M, 64]⟩ : Shape).Idx) (i : (⟨2, ![R, 64]⟩ : Shape).Idx) (h0 : (i 0).val = T * M + (j 0).val)
    (h1 : (i 1).val = (j 1).val) :
    addf (F := Ideal) (φ := .f32) (matmul D none
        (truncf (F := Ideal) (φ := .f32) .bf16 (addf (mulf (mulf (broadcastTo _ (shapeCast _ xg hs) hb) (subf x0 (broadcastTo _ (shapeCast _ xm hs) hb)))
          (broadcastTo _ (rsqrt (addf (shapeCast _ xv hs) (broadcast _ (Scalar.ofBits .f32 0x3727C5AC#32)))) hb))
          (broadcastTo _ (shapeCast _ xb hs) hb)) ht)
        (truncf (F := Ideal) (φ := .f32) .bf16 W ht) (constant (F := Ideal) _ .f32 0x00000000#32)) (broadcastTo _ (shapeCast _ bias hs) hb) j
      = Gcn.lin (Gcn.bn Gcn.epsBN (Gcn.row xg) (Gcn.row xb) (Gcn.row xm) (Gcn.row xv) H) W (Gcn.row bias) i := by
  obtain ⟨p, q, rfl⟩ : ∃ (p : Fin M) (q : Fin 64), j = ix2 p q := ⟨j 0, j 1, eq_ix2 j⟩
  obtain ⟨r, q', rfl⟩ : ∃ (r : Fin R) (q' : Fin 64), i = ix2 r q' := ⟨i 0, i 1, eq_ix2 i⟩
  obtain rfl : q = q' := (Fin.ext h1).symm
  simp only [addf_apply, product_apply D hD, broadcastTo_1b_ab_apply, shapeCast_self, truncf_apply, mulf_apply, subf_apply,
    Gcn.lin_apply, Gcn.bn_apply, fun k => hx p k r h0]
  rfl

end Cert.BlockLinear

end
-- ==== Proof.KReg2.lean ====
import proofs.«123720_j33586644255160_2_alg».proof.Proof.Gen.KernelIdeal.Frame
import proofs.«123720_j33586644255160_2_alg».proof.Proof.BlockLinear

noncomputable section

namespace Cert.KernelIdeal.KReg2

open Idealize.ShloMosaic Idealize.ShloMosaic.TcCoe Idealize.ShloMosaic.ValueIdx Cert.BlockLinear

variable (V : (c : Dev nD) → (b : Ref sig .tc) → Buf (Elt Ideal) ((c : Thread nD τ).loc b))

theorem index_rows : ∀ t : Fin cfg2.N,
    (win2_0.index t (0 : Fin 2) = t.val ∧ win2_0.index t (1 : Fin 2) = 0)
    ∧ win2_13.index t (0 : Fin 2) = t.val ∧ win2_13.index t (1 : Fin 2) = 0 :=
  (by decide +kernel : ∀ t : Fin grid2.N, _)

abbrev proj (c : Dev nD) (W : Gcn.Mat 64 64) (bias : Gcn.Mat 1 64) : Gcn.Mat 50000 64 :=
  Gcn.lin (Gcn.bn Gcn.epsBN (Gcn.row (V c (Pipeline.arrRef spec2 3))) (Gcn.row (V c (Pipeline.arrRef spec2 4))) (Gcn.row (V c (Pipeline.arrRef spec2 1))) (Gcn.row (V c (Pipeline.arrRef spec2 2))) (V c (Pipeline.arrRef spec2 0))) W (Gcn.row bias)

section Point
variable (c : Dev nD) (t : Fin cfg2.N)

/-- The block of the node features at point t holds rows t * 10000 + p. -/
theorem feature (p : Fin 10000) (k : Fin 64) (r : Fin 50000) (hr : r.val = t.val * 10000 + p.val) :
    (Gen.iblk2 V c 0 t : Gcn.Mat 10000 64) (ix2 p k) = V c (Pipeline.arrRef spec2 0) (ix2 r k) := by
  obtain ⟨⟨e0, e1⟩, -⟩ := index_rows t
  exact congrArg (V c _) (Shape.idx_ext₂
    (by show win2_0.index t (0 : Fin 2) * 10000 + 1 * p.val = r.val; rw [e0, hr]; omega)
    (by show win2_0.index t (1 : Fin 2) * 64 + 1 * k.val = k.val; rw [e1]; omega))

theorem w1 : (Gen.iblk2 V c 1 t : Gcn.Mat 1 64) = V c (Pipeline.arrRef spec2 1) :=
  funext fun x => congrArg (V c _) (idx_eq _ x rfl rfl)
theorem w2 : (Gen.iblk2 V c 2 t : Gcn.Mat 1 64) = V c (Pipeline.arrRef spec2 2) :=
  funext fun x => congrArg (V c _) (idx_eq _ x rfl rfl)
theorem w3 : (Gen.iblk2 V c 3 t : Gcn.Mat 1 64) = V c (Pipeline.arrRef spec2 3) :=
  funext fun x => congrArg (V c _) (idx_eq _ x rfl rfl)
theorem w4 : (Gen.iblk2 V c 4 t : Gcn.Mat 1 64) = V c (Pipeline.arrRef spec2 4) :=
  funext fun x => congrArg (V c _) (idx_eq _ x rfl rfl)
theorem w5 : (Gen.iblk2 V c 5 t : Gcn.Mat 64 64) = V c (Pipeline.arrRef spec2 5) :=
  funext fun x => congrArg (V c _) (idx_eq _ x rfl rfl)
theorem w6 : (Gen.iblk2 V c 6 t : Gcn.Mat 1 64) = V c (Pipeline.arrRef spec2 6) :=
  funext fun x => congrArg (V c _) (idx_eq _ x rfl rfl)
theorem w7 : (Gen.iblk2 V c 7 t : Gcn.Mat 64 64) = V c (Pipeline.arrRef spec2 7) :=
  funext fun x => congrArg (V c _) (idx_eq _ x rfl rfl)
theorem w8 : (Gen.iblk2 V c 8 t : Gcn.Mat 1 64) = V c (Pipeline.arrRef spec2 8) :=
  funext fun x => congrArg (V c _) (idx_eq _ x rfl rfl)
theorem w9 : (Gen.iblk2 V c 9 t : Gcn.Mat 64 64) = V c (Pipeline.arrRef spec2 9) :=
  funext fun x => congrArg (V c _) (idx_eq _ x rfl rfl)
theorem w10 : (Gen.iblk2 V c 10 t : Gcn.Mat 1 64) = V c (Pipeline.arrRef spec2 10) :=
  funext fun x => congrArg (V c _) (idx_eq _ x rfl rfl)
theorem w11 : (Gen.iblk2 V c 11 t : Gcn.Mat 64 64) = V c (Pipeline.arrRef spec2 11) :=
  funext fun x => congrArg (V c _) (idx_eq _ x rfl rfl)
theorem w12 : (Gen.iblk2 V c 12 t : Gcn.Mat 1 64) = V c (Pipeline.arrRef spec2 12) :=
  funext fun x => congrArg (V c _) (idx_eq _ x rfl rfl)

/-- For any weight and bias row the value stored at point t is block t of their projection; the four outputs are cut into the same row blocks. -/
theorem block_eq (W : Gcn.Mat 64 64) (bias : Gcn.Mat 1 64) :
    Gen.k2_pay5 (Gen.iblk2 V c 0 t) (V c (Pipeline.arrRef spec2 3)) (V c (Pipeline.arrRef spec2 1)) (V c (Pipeline.arrRef spec2 2)) (V c (Pipeline.arrRef spec2 4)) W bias
      = ((cfg2.win 13).blk t).view.read (Elt Ideal) (proj V c W bias) := by
  obtain ⟨-, e0, e1⟩ := index_rows t
  funext j
  exact proj_at _ rfl _ _ _ _ _ _ _ _ _ _ _ t.val (feature V c t) j (((cfg2.win 13).blk t).view.emb j)
    (by show win2_13.index t (0 : Fin 2) * 10000 + 1 * (j 0).val = t.val * 10000 + (j 0).val; rw [e0]; omega)
    (by show win2_13.index t (1 : Fin 2) * 64 + 1 * (j 1).val = (j 1).val; rw [e1]; omega)

theorem flushedA :
    (Gen.dat2 (F := Ideal) V c).flushed 13 t = ((cfg2.win 13).blk t).view.read (Elt Ideal) (proj V c (V c (Pipeline.arrRef spec2 5)) (V c (Pipeline.arrRef spec2 6))) := by
  show (cfg2.win 13).cut (grid2.coords t) ((Gen.dat2 V c).after 13 t) = _
  rw [Gen.after2_13]
  unfold Gen.out2_13
  rw [View.canon_unit_zero zeroOffsets]
  simp only [ld0]
  rw [w1, w2, w3, w4, w5, w6]
  exact block_eq V c t _ _

theorem flushedB :
    (Gen.dat2 (F := Ideal) V c).flushed 14 t = ((cfg2.win 14).blk t).view.read (Elt Ideal) (proj V c (V c (Pipeline.arrRef spec2 7)) (V c (Pipeline.arrRef spec2 8))) := by
  show (cfg2.win 14).cut (grid2.coords t) ((Gen.dat2 V c).after 14 t) = _
  rw [Gen.after2_14]
  unfold Gen.out2_14
  rw [View.canon_unit_zero zeroOffsets]
  simp only [ld0]
  rw [w1, w2, w3, w4, w7, w8]
  exact block_eq V c t _ _

theorem flushedC :
    (Gen.dat2 (F := Ideal) V c).flushed 15 t = ((cfg2.win 15).blk t).view.read (Elt Ideal) (proj V c (V c (Pipeline.arrRef spec2 9)) (V c (Pipeline.arrRef spec2 10))) := by
  show (cfg2.win 15).cut (grid2.coords t) ((Gen.dat2 V c).after 15 t) = _
  rw [Gen.after2_15]
  unfold Gen.out2_15
  rw [View.canon_unit_zero zeroOffsets]
  simp only [ld0]
  rw [w1, w2, w3, w4, w9, w10]
  exact block_eq V c t _ _

theorem flushedD :
    (Gen.dat2 (F := Ideal) V c).flushed 16 t = ((cfg2.win 16).blk t).view.read (Elt Ideal) (proj V c (V c (Pipeline.arrRef spec2 11)) (V c (Pipeline.arrRef spec2 12))) := by
  show (cfg2.win 16).cut (grid2.coords t) ((Gen.dat2 V c).after 16 t) = _
  rw [Gen.after2_16]
  unfold Gen.out2_16
  rw [View.canon_unit_zero zeroOffsets]
  simp only [ld0]
  rw [w1, w2, w3, w4, w11, w12]
  exact block_eq V c t _ _

end Point

/-- Row r of an output lies in the block of point r / 10000. -/
theorem coverA (i : S50000x64.Idx) :
    ∃ t : Fin cfg2.N, (cfg2.win 13).flush t = true ∧ i ∈ ((cfg2.win 13).blk t).view.set := by
  have hi0 : (i 0).val < 50000 := (i 0).isLt
  have hi1 : (i 1).val < 64 := (i 1).isLt
  obtain ⟨t, ht⟩ : ∃ t : Fin cfg2.N, t.val = (i 0).val / 10000 := ⟨⟨(i 0).val / 10000, by rw [show cfg2.N = 5 from Gen.N_2]; omega⟩, rfl⟩
  obtain ⟨-, e0, e1⟩ := index_rows t
  refine ⟨t, Gen.flush2_13 t, ?_⟩
  show i ∈ ((View.whole main_v35_0).slice (win2_13.rect t)).set
  rw [View.set_slice_whole, Rect.mem_set_unit]
  intro a
  match a with
  | ⟨0, _⟩ =>
    show win2_13.index t (0 : Fin 2) * 10000 ≤ (i 0).val ∧ (i 0).val < win2_13.index t (0 : Fin 2) * 10000 + 10000
    rw [e0]; omega
  | ⟨1, _⟩ =>
    show win2_13.index t (1 : Fin 2) * 64 ≤ (i 1).val ∧ (i 1).val < win2_13.index t (1 : Fin 2) * 64 + 64
    rw [e1]; omega

theorem outA (c : Dev nD) :
    ((Gen.dat2 (F := Ideal) V c).arrAt 13 cfg2.N : Gcn.Mat 50000 64)
      = Gcn.lin
          (Gcn.bn Gcn.epsBN (Gcn.row (V c (Pipeline.arrRef spec2 3) : Gcn.Mat 1 64)) (Gcn.row (V c (Pipeline.arrRef spec2 4) : Gcn.Mat 1 64))
            (Gcn.row (V c (Pipeline.arrRef spec2 1) : Gcn.Mat 1 64)) (Gcn.row (V c (Pipeline.arrRef spec2 2) : Gcn.Mat 1 64))
            (V c (Pipeline.arrRef spec2 0) : Gcn.Mat 50000 64))
          (V c (Pipeline.arrRef spec2 5) : Gcn.Mat 64 64) (Gcn.row (V c (Pipeline.arrRef spec2 6) : Gcn.Mat 1 64)) :=
  (Gen.dat2 (F := Ideal) V c).arrAt_eq_of_cover 13 _ (fun t _ => flushedA V c t) coverA

theorem outB (c : Dev nD) :
    ((Gen.dat2 (F := Ideal) V c).arrAt 14 cfg2.N : Gcn.Mat 50000 64)
      = Gcn.lin
          (Gcn.bn Gcn.epsBN (Gcn.row (V c (Pipeline.arrRef spec2 3) : Gcn.Mat 1 64)) (Gcn.row (V c (Pipeline.arrRef spec2 4) : Gcn.Mat 1 64))
            (Gcn.row (V c (Pipeline.arrRef spec2 1) : Gcn.Mat 1 64)) (Gcn.row (V c (Pipeline.arrRef spec2 2) : Gcn.Mat 1 64))
            (V c (Pipeline.arrRef spec2 0) : Gcn.Mat 50000 64))
          (V c (Pipeline.arrRef spec2 7) : Gcn.Mat 64 64) (Gcn.row (V c (Pipeline.arrRef spec2 8) : Gcn.Mat 1 64)) :=
  (Gen.dat2 (F := Ideal) V c).arrAt_eq_of_cover 14 _ (fun t _ => flushedB V c t) coverA

theorem outC (c : Dev nD) :
    ((Gen.dat2 (F := Ideal) V c).arrAt 15 cfg2.N : Gcn.Mat 50000 64)
      = Gcn.lin
          (Gcn.bn Gcn.epsBN (Gcn.row (V c (Pipeline.arrRef spec2 3) : Gcn.Mat 1 64)) (Gcn.row (V c (Pipeline.arrRef spec2 4) : Gcn.Mat 1 64))
            (Gcn.row (V c (Pipeline.arrRef spec2 1) : Gcn.Mat 1 64)) (Gcn.row (V c (Pipeline.arrRef spec2 2) : Gcn.Mat 1 64))
            (V c (Pipeline.arrRef spec2 0) : Gcn.Mat 50000 64))
          (V c (Pipeline.arrRef spec2 9) : Gcn.Mat 64 64) (Gcn.row (V c (Pipeline.arrRef spec2 10) : Gcn.Mat 1 64)) :=
  (Gen.dat2 (F := Ideal) V c).arrAt_eq_of_cover 15 _ (fun t _ => flushedC V c t) coverA

theorem outD (c : Dev nD) :
    ((Gen.dat2 (F := Ideal) V c).arrAt 16 cfg2.N : Gcn.Mat 50000 64)
      = Gcn.lin
          (Gcn.bn Gcn.epsBN (Gcn.row (V c (Pipeline.arrRef spec2 3) : Gcn.Mat 1 64)) (Gcn.row (V c (Pipeline.arrRef spec2 4) : Gcn.Mat 1 64))
            (Gcn.row (V c (Pipeline.arrRef spec2 1) : Gcn.Mat 1 64)) (Gcn.row (V c (Pipeline.arrRef spec2 2) : Gcn.Mat 1 64))
            (V c (Pipeline.arrRef spec2 0) : Gcn.Mat 50000 64))
          (V c (Pipeline.arrRef spec2 11) : Gcn.Mat 64 64) (Gcn.row (V c (Pipeline.arrRef spec2 12) : Gcn.Mat 1 64)) :=
  (Gen.dat2 (F := Ideal) V c).arrAt_eq_of_cover 16 _ (fun t _ => flushedD V c t) coverA

end Cert.KernelIdeal.KReg2

end
-- ==== Proof.KReg3.lean ====
import proofs.«123720_j33586644255160_2_alg».proof.Proof.Gen.KernelIdeal.Frame
import proofs.«123720_j33586644255160_2_alg».proof.Proof.BlockLinear

noncomputable section

namespace Cert.KernelIdeal.KReg3

open Idealize.ShloMosaic Idealize.ShloMosaic.TcCoe Idealize.ShloMosaic.ValueIdx Cert.BlockLinear

variable (V : (c : Dev nD) → (b : Ref sig .tc) → Buf (Elt Ideal) ((c : Thread nD τ).loc b))

theorem block_index : ∀ t : Fin cfg3.N,
    (win3_0.index t (0 : Fin 2) = t.val ∧ win3_0.index t (1 : Fin 2) = 0)
    ∧ win3_7.index t (0 : Fin 2) = t.val ∧ win3_7.index t (1 : Fin 2) = 0 :=
  (by decide +kernel : ∀ t : Fin grid3.N, _)

/-- The block of the edge features at point t holds rows t * 8000 + p. -/
theorem feature (c : Dev nD) (t : Fin cfg3.N) (p : Fin 8000) (k : Fin 64) (r : Fin 800000)
    (hr : r.val = t.val * 8000 + p.val) :
    (Gen.iblk3 V c 0 t : Gcn.Mat 8000 64) (ix2 p k) = V c (Pipeline.arrRef spec3 0) (ix2 r k) := by
  obtain ⟨⟨e0, e1⟩, -⟩ := block_index t
  exact congrArg (V c _) (Shape.idx_ext₂
    (by show win3_0.index t (0 : Fin 2) * 8000 + 1 * p.val = r.val; rw [e0, hr]; omega)
    (by show win3_0.index t (1 : Fin 2) * 64 + 1 * k.val = k.val; rw [e1]; omega))

/-- Where the block is the whole array, the block at every point is the array. -/
theorem whole (c : Dev nD) (t : Fin cfg3.N) :
    (Gen.iblk3 V c 1 t : Gcn.Mat 1 64) = V c (Pipeline.arrRef spec3 1)
    ∧ (Gen.iblk3 V c 2 t : Gcn.Mat 1 64) = V c (Pipeline.arrRef spec3 2)
    ∧ (Gen.iblk3 V c 3 t : Gcn.Mat 1 64) = V c (Pipeline.arrRef spec3 3)
    ∧ (Gen.iblk3 V c 4 t : Gcn.Mat 1 64) = V c (Pipeline.arrRef spec3 4)
    ∧ (Gen.iblk3 V c 5 t : Gcn.Mat 64 64) = V c (Pipeline.arrRef spec3 5)
    ∧ (Gen.iblk3 V c 6 t : Gcn.Mat 1 64) = V c (Pipeline.arrRef spec3 6) := by
  refine ⟨?_, ?_, ?_, ?_, ?_, ?_⟩ <;> exact funext fun x => congrArg (V c _) (idx_eq _ x rfl rfl)

abbrev proj (c : Dev nD) : Gcn.Mat 800000 64 :=
  Gcn.lin (Gcn.bn Gcn.epsBN (Gcn.row (V c (Pipeline.arrRef spec3 3))) (Gcn.row (V c (Pipeline.arrRef spec3 4))) (Gcn.row (V c (Pipeline.arrRef spec3 1))) (Gcn.row (V c (Pipeline.arrRef spec3 2))) (V c (Pipeline.arrRef spec3 0)))
    (V c (Pipeline.arrRef spec3 5)) (Gcn.row (V c (Pipeline.arrRef spec3 6)))

theorem flushed (c : Dev nD) (t : Fin cfg3.N) :
    (Gen.dat3 (F := Ideal) V c).flushed 7 t = ((cfg3.win 7).blk t).view.read (Elt Ideal) (proj V c) := by
  obtain ⟨e1, e2, e3, e4, e5, e6⟩ := whole V c t
  obtain ⟨-, e0, e⟩ := block_index t
  show (cfg3.win 7).cut (grid3.coords t) ((Gen.dat3 V c).after 7 t) = _
  rw [Gen.after3_7]
  unfold Gen.out3_7
  rw [View.canon_unit_zero zeroOffsets]
  simp only [ld0]
  rw [e1, e2, e3, e4, e5, e6]
  funext j
  exact proj_at _ rfl _ _ _ _ _ _ _ _ _ _ _ t.val (feature V c t) j (((cfg3.win 7).blk t).view.emb j)
    (by show win3_7.index t (0 : Fin 2) * 8000 + 1 * (j 0).val = t.val * 8000 + (j 0).val; rw [e0]; omega)
    (by show win3_7.index t (1 : Fin 2) * 64 + 1 * (j 1).val = (j 1).val; rw [e]; omega)

/-- Row r of the output lies in the block of point r / 8000. -/
theorem cover (i : S800000x64.Idx) :
    ∃ t : Fin cfg3.N, (cfg3.win 7).flush t = true ∧ i ∈ ((cfg3.win 7).blk t).view.set := by
  have hi0 : (i 0).val < 800000 := (i 0).isLt
  have hi1 : (i 1).val < 64 := (i 1).isLt
  obtain ⟨t, ht⟩ : ∃ t : Fin cfg3.N, t.val = (i 0).val / 8000 := ⟨⟨(i 0).val / 8000, by rw [show cfg3.N = 100 from Gen.N_3]; omega⟩, rfl⟩
  obtain ⟨-, e0, e1⟩ := block_index t
  refine ⟨t, Gen.flush3_7 t, ?_⟩
  show i ∈ ((View.whole main_v36).slice (win3_7.rect t)).set
  rw [View.set_slice_whole, Rect.mem_set_unit]
  intro a
  match a with
  | ⟨0, _⟩ =>
    show win3_7.index t (0 : Fin 2) * 8000 ≤ (i 0).val ∧ (i 0).val < win3_7.index t (0 : Fin 2) * 8000 + 8000
    rw [e0]; omega
  | ⟨1, _⟩ =>
    show win3_7.index t (1 : Fin 2) * 64 ≤ (i 1).val ∧ (i 1).val < win3_7.index t (1 : Fin 2) * 64 + 64
    rw [e1]; omega

theorem outE (c : Dev nD) :
    ((Gen.dat3 (F := Ideal) V c).arrAt 7 cfg3.N : Gcn.Mat 800000 64)
      = Gcn.lin
          (Gcn.bn Gcn.epsBN (Gcn.row (V c (Pipeline.arrRef spec3 3))) (Gcn.row (V c (Pipeline.arrRef spec3 4)))
            (Gcn.row (V c (Pipeline.arrRef spec3 1))) (Gcn.row (V c (Pipeline.arrRef spec3 2)))
            (V c (Pipeline.arrRef spec3 0)))
          (V c (Pipeline.arrRef spec3 5)) (Gcn.row (V c (Pipeline.arrRef spec3 6))) :=
  (Gen.dat3 (F := Ideal) V c).arrAt_eq_of_cover 7 _ (fun t _ => flushed V c t) cover

end Cert.KernelIdeal.KReg3

end
-- ==== Proof.KComp1.lean ====
import proofs.«123720_j33586644255160_2_alg».proof.Proof.Gen.KernelIdeal.Frame
import proofs.«123720_j33586644255160_2_alg».proof.Proof.Spec
import proofs.«123720_j33586644255160_2_alg».proof.Proof.KDefs
import proofs.«123720_j33586644255160_2_alg».proof.Proof.KKeep
import proofs.«123720_j33586644255160_2_alg».proof.Proof.KReg0
import proofs.«123720_j33586644255160_2_alg».proof.Proof.KReg1
import proofs.«123720_j33586644255160_2_alg».proof.Proof.KReg2
import proofs.«123720_j33586644255160_2_alg».proof.Proof.KReg3
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.KComp1

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem kept (j k : Nat) (c : Dev nD) (b : Ref sig .tc)
    (h : j ≤ k ∧ k ≤ 17 ∧ b ∉ (List.range' j (k - j)).flatMap KKeep.wrAt := by decide) :
    KKeep.Wseq m ρ k c (Proc.devRef .tc b) = KKeep.Wseq m ρ j c (Proc.devRef .tc b) :=
  KKeep.keep m ρ j k h.1 h.2.1 c b h.2.2

-- Position `(0, j)` of the one-row matrix and position `j` of the rank-one array have the same row-major offset `j`.
theorem arg_row {C : Nat} {u w : Gcn.Mat 1 C} {x : (⟨1, ![C]⟩ : Shape).Idx → EReal}
    {h : (⟨1, ![C]⟩ : Shape).ShapeCasts (⟨2, ![1, C]⟩ : Shape)} (hk : u = w)
    (e : w = shapeCast (⟨2, ![1, C]⟩ : Shape) x h := by show StableHlo.after hostOps0 _ _ = _; after_results <;> rfl) :
    Gcn.row u = Gcn.vec x := by
  rw [hk, e]
  funext j
  exact shapeCast_apply x h (ix2 0 j) (ix1 j) (by
    rw [Shape.rowMajor_val_one, Shape.rowMajor_val_two]; show j.val = 0 * C + j.val; omega)

abbrev spread (n : BitVec 32) : Gcn.Mat 1 64 := broadcastInDim S1x64 ![] bcast_S_S1x64 (constant (F := Ideal) S_ .f32 n)

-- Entry by entry the quotient is `mean`, and the clamped difference of the quotient of squares and the squared quotient is `varClamped`.
theorem host_stats {R : Nat} {X : Gcn.Mat R 64} {s q mu v : Gcn.Mat 1 64} {n : BitVec 32}
    (hs : Gcn.row s = Gcn.colSum X) (hq : Gcn.row q = Gcn.colSumSq X)
    (emu : mu = Host.divf (F := Ideal) (s := S1x64) (φ := .f32) s (spread n))
    (ev : v = maximumf (F := Ideal) (s := S1x64) (φ := .f32)
      (subf (F := Ideal) (s := S1x64) (φ := .f32) (Host.divf (F := Ideal) (s := S1x64) (φ := .f32) q (spread n))
        (mulf (F := Ideal) (s := S1x64) (φ := .f32) (Host.divf (F := Ideal) (s := S1x64) (φ := .f32) s (spread n))
          (Host.divf (F := Ideal) (s := S1x64) (φ := .f32) s (spread n))))
      (spread 0x00000000#32)) :
    Gcn.row mu = Gcn.mean (Ideal.ofBits .f32 n) X ∧ Gcn.row v = Gcn.varClamped (Ideal.ofBits .f32 n) X := by
  subst emu ev
  dsimp only [spread]
  refine ⟨funext fun j => ?_, funext fun j => ?_⟩
  · show Host.divf (F := Ideal) (s := S1x64) (φ := .f32) s _ (ix2 0 j) = Ideal.div (Gcn.colSum X j) _
    rw [hostDivf_apply, broadcastInDim_scalar_apply, ← hs]
    rfl
  · show maximumf (F := Ideal) (s := S1x64) (φ := .f32) _ _ (ix2 0 j)
      = max (Ideal.div (Gcn.colSumSq X j) _ - Ideal.div (Gcn.colSum X j) _ * Ideal.div (Gcn.colSum X j) _) 0
    rw [maximumf_apply, subf_apply, mulf_apply, hostDivf_apply, hostDivf_apply, broadcastInDim_scalar_apply,
      broadcastInDim_scalar_apply, constant_apply, constant_apply, Ideal.ofBits_zero_f32, ← hs, ← hq]
    rfl

theorem bn_congr {R C : Nat} {X X' : Gcn.Mat R C} {g g' b b' mu mu' v v' : Gcn.RowV C}
    (hX : X = X') (hmu : mu = mu') (hv : v = v') (hg : g = g') (hb : b = b') :
    Gcn.bn Gcn.epsBN g b mu v X = Gcn.bn Gcn.epsBN g' b' mu' v' X' := by rw [hX, hmu, hv, hg, hb]

theorem lin_congr {R K C : Nat} {X X' : Gcn.Mat R K} {W W' : Gcn.Mat K C} {p p' : Gcn.RowV C}
    (hX : X = X') (hW : W = W') (hp : p = p') : Gcn.lin X W p = Gcn.lin X' W' p' := by rw [hX, hW, hp]

theorem stats_h (c : Dev nD) :
    Gcn.row (W3 m ρ c (Proc.devRef .tc main_v19) : Gcn.Mat 1 64) = Gcn.mean Gcn.nNodes (KDefs.params m c).h
      ∧ Gcn.row (W3 m ρ c (Proc.devRef .tc main_v25) : Gcn.Mat 1 64) = Gcn.varClamped Gcn.nNodes (KDefs.params m c).h :=
  host_stats (s := W2 m ρ c (Proc.devRef .tc main_v17_0)) (q := W2 m ρ c (Proc.devRef .tc main_v17_1))
    ((congrArg Gcn.row (W2_arr m ρ c 1)).trans ((KReg0.sum_eq (V1 m ρ) c).trans (congrArg Gcn.colSum (kept m ρ 0 1 c main_arg0))))
    ((congrArg Gcn.row (W2_arr m ρ c 2)).trans ((KReg0.sumsq_eq (V1 m ρ) c).trans (congrArg Gcn.colSumSq (kept m ρ 0 1 c main_arg0))))
    (by show StableHlo.after hostOps1 _ _ = _; after_results <;> rfl)
    (by show StableHlo.after hostOps1 _ _ = _; after_results <;> rfl)

theorem stats_e (c : Dev nD) :
    Gcn.row (W5 m ρ c (Proc.devRef .tc main_v28) : Gcn.Mat 1 64) = Gcn.mean Gcn.nEdges (KDefs.params m c).e
      ∧ Gcn.row (W5 m ρ c (Proc.devRef .tc main_v34) : Gcn.Mat 1 64) = Gcn.varClamped Gcn.nEdges (KDefs.params m c).e :=
  host_stats (s := W4 m ρ c (Proc.devRef .tc main_v26_0)) (q := W4 m ρ c (Proc.devRef .tc main_v26_1))
    ((congrArg Gcn.row (W4_arr m ρ c 1)).trans ((KReg1.sum_eq (V3 m ρ) c).trans (congrArg Gcn.colSum (kept m ρ 0 3 c main_arg1))))
    ((congrArg Gcn.row (W4_arr m ρ c 2)).trans ((KReg1.sumsq_eq (V3 m ρ) c).trans (congrArg Gcn.colSumSq (kept m ρ 0 3 c main_arg1))))
    (by show StableHlo.after hostOps2 _ _ = _; after_results <;> rfl)
    (by show StableHlo.after hostOps2 _ _ = _; after_results <;> rfl)

-- The normalised node features as the four node projections read them.
theorem hn (c : Dev nD) :
    Gcn.bn Gcn.epsBN (Gcn.row (V5 m ρ c (Pipeline.arrRef spec2 3) : Gcn.Mat 1 64)) (Gcn.row (V5 m ρ c (Pipeline.arrRef spec2 4) : Gcn.Mat 1 64))
        (Gcn.row (V5 m ρ c (Pipeline.arrRef spec2 1) : Gcn.Mat 1 64)) (Gcn.row (V5 m ρ c (Pipeline.arrRef spec2 2) : Gcn.Mat 1 64))
        (V5 m ρ c (Pipeline.arrRef spec2 0) : Gcn.Mat 50000 64)
      = Gcn.hn1 (KDefs.params m c) (Gcn.varClamped Gcn.nNodes) :=
  bn_congr (kept m ρ 0 5 c main_arg0) ((congrArg Gcn.row (kept m ρ 3 5 c main_v19)).trans (stats_h m ρ c).1)
    ((congrArg Gcn.row (kept m ρ 3 5 c main_v25)).trans (stats_h m ρ c).2)
    (arg_row (kept m ρ 1 5 c main_v0)) (arg_row (kept m ρ 1 5 c main_v1))

theorem pA (c : Dev nD) :
    (W7 m ρ c (Proc.devRef .tc main_v35_0) : Gcn.Mat 50000 64) = Gcn.pA (KDefs.params m c) (Gcn.varClamped Gcn.nNodes) :=
  (kept m ρ 6 7 c main_v35_0).trans <| (W6_arr m ρ c 13).trans <| (KReg2.outA (V5 m ρ) c).trans <|
    lin_congr (hn m ρ c) (kept m ρ 0 5 c main_arg4) (arg_row (kept m ρ 1 5 c main_v8))

theorem pB (c : Dev nD) :
    (W7 m ρ c (Proc.devRef .tc main_v35_1) : Gcn.Mat 50000 64) = Gcn.pB (KDefs.params m c) (Gcn.varClamped Gcn.nNodes) :=
  (kept m ρ 6 7 c main_v35_1).trans <| (W6_arr m ρ c 14).trans <| (KReg2.outB (V5 m ρ) c).trans <|
    lin_congr (hn m ρ c) (kept m ρ 0 5 c main_arg5) (arg_row (kept m ρ 1 5 c main_v9))

theorem pC (c : Dev nD) :
    (W7 m ρ c (Proc.devRef .tc main_v35_2) : Gcn.Mat 50000 64) = Gcn.pC (KDefs.params m c) (Gcn.varClamped Gcn.nNodes) :=
  (kept m ρ 6 7 c main_v35_2).trans <| (W6_arr m ρ c 15).trans <| (KReg2.outC (V5 m ρ) c).trans <|
    lin_congr (hn m ρ c) (kept m ρ 0 5 c main_arg6) (arg_row (kept m ρ 1 5 c main_v10))

theorem pD (c : Dev nD) :
    (W7 m ρ c (Proc.devRef .tc main_v35_3) : Gcn.Mat 50000 64) = Gcn.pD (KDefs.params m c) (Gcn.varClamped Gcn.nNodes) :=
  (kept m ρ 6 7 c main_v35_3).trans <| (W6_arr m ρ c 16).trans <| (KReg2.outD (V5 m ρ) c).trans <|
    lin_congr (hn m ρ c) (kept m ρ 0 5 c main_arg7) (arg_row (kept m ρ 1 5 c main_v11))

theorem pE (c : Dev nD) :
    (W7 m ρ c (Proc.devRef .tc main_v36) : Gcn.Mat 800000 64) = Gcn.pE (KDefs.params m c) (Gcn.varClamped Gcn.nEdges) :=
  (W7_arr m ρ c 7).trans <| (KReg3.outE (V6 m ρ) c).trans <|
    lin_congr
      (bn_congr (kept m ρ 0 6 c main_arg1) ((congrArg Gcn.row (kept m ρ 5 6 c main_v28)).trans (stats_e m ρ c).1)
        ((congrArg Gcn.row (kept m ρ 5 6 c main_v34)).trans (stats_e m ρ c).2)
        (arg_row (kept m ρ 1 6 c main_v2)) (arg_row (kept m ρ 1 6 c main_v3)))
      (kept m ρ 0 6 c main_arg8) (arg_row (kept m ρ 1 6 c main_v12))

end Cert.KernelIdeal.KComp1

end
-- ==== Proof.EntrywiseRowBlocks.lean ====
import Idealize.ShloMosaic.Lib.Pipeline.Value
import Idealize.ShloMosaic.Lib.ValueIdx

namespace Cert.RowBlocks

open Idealize.SL Idealize.SL.RA Idealize.ShloMosaic Idealize.ShloMosaic.ValueIdx Idealize.ShloMosaic.Pipeline

theorem off_zero : (![0, 0] : Fin 2 → ℕ) = fun _ => 0 := funext fun a => by fin_cases a <;> rfl

variable {N B C R : ℕ}

theorem row_lt (h : R = N * B) (t : Fin N) (p : Fin B) : p.val + t.val * B < R :=
  h ▸ calc p.val + t.val * B < B + t.val * B := Nat.add_lt_add_right p.isLt _
    _ = (t.val + 1) * B := by rw [Nat.succ_mul, Nat.add_comm]
    _ ≤ N * B := Nat.mul_le_mul_right _ t.isLt

-- row `p` of row block `t`, column `q`, of an array cut into `N` blocks of `B` rows
def rowOf (h : R = N * B) (t : Fin N) (p : Fin B) (q : Fin C) : (⟨2, ![R, C]⟩ : Shape).Idx :=
  ix2 ⟨p.val + t.val * B, row_lt h t p⟩ q

-- every row lies in the block of its quotient by `B`, at its remainder
theorem exists_rowOf (h : R = N * B) (i : (⟨2, ![R, C]⟩ : Shape).Idx) : ∃ t p q, rowOf h t p q = i := by
  have hi : (i 0).val < N * B := h ▸ idx2_lt0 i
  have hB : 0 < B := Nat.pos_of_ne_zero fun e => by rw [e] at hi; exact absurd hi (Nat.not_lt_zero _)
  exact ⟨⟨(i 0).val / B, Nat.div_lt_of_lt_mul (Nat.mul_comm N B ▸ hi)⟩, ⟨(i 0).val % B, Nat.mod_lt _ hB⟩, i 1,
    Shape.idx_ext₂ (Nat.mod_add_div' _ _) rfl⟩

-- so blocks whose entries are the rows of their row block reach every entry of the array
theorem exists_emb (h : R = N * B) {E : Fin N → (⟨2, ![B, C]⟩ : Shape).Idx → (⟨2, ![R, C]⟩ : Shape).Idx}
    (hE : ∀ t p q, E t (ix2 p q) = rowOf h t p q) (i : (⟨2, ![R, C]⟩ : Shape).Idx) : ∃ t y, E t y = i :=
  let ⟨t, p, q, e⟩ := exists_rowOf h i; ⟨t, ix2 p q, (hE t p q).trans e⟩

-- a block's entry sits, on an axis of block index `n`, `n` blocks further than in the block
theorem emb_val {sig : RefSig} {G : Grid} (w : Window sig G) (t : Fin G.N) (y : (w.xblock (G.coords t)).Idx)
    (a : Fin w.shape.rank) (n : ℕ) (hn : w.index t a = n) : ((w.rect t).emb y a : ℕ) = y a + n * w.size a := by
  rw [w.rect_emb_val, hn, Nat.add_comm]

variable {nD : Nat} {τ : Topo} {sig : RefSig} {Val : EltTy → Type}
variable {Ix : Type} [DecidableEq Ix] {Name : Type} [DecidableEq Name] {U : Type} [URA U] {Lvl : Type}
variable {Λ₀ : Sem.Labels} {cfg : Cfg sig Λ₀} {c : Dev nD} (dat : Dat τ Val Ix Name U Lvl cfg c)

-- if every point writes back its block of `G` and every entry of the array is some block's entry, the array ends as `G`
theorem arrAt_eq_of_emb (w : Fin cfg.W) (G : Buf Val ((cfg.win w).arr.view.loc (c.tc : Thread nD τ)))
    (hf : ∀ t, (cfg.win w).flush t = true) (hG : ∀ t, dat.flushed w t = ((cfg.win w).blk t).view.read Val G)
    (hc : ∀ i : ((cfg.win w).arr.view.loc (c.tc : Thread nD τ)).2.ty.Idx, ∃ t y, ((cfg.win w).blk t).view.emb y = i) : dat.arrAt w cfg.N = G :=
  dat.arrAt_eq_of_cover w G (fun t _ => hG t) fun i =>
    let ⟨t, y, e⟩ := hc i; ⟨t, hf t, e ▸ ((cfg.win w).blk t).view.emb_mem_set y⟩

end Cert.RowBlocks
-- ==== Proof.KReg4.lean ====
import proofs.«123720_j33586644255160_2_alg».proof.Proof.Gen.KernelIdeal.Frame
import proofs.«123720_j33586644255160_2_alg».proof.Proof.Spec
import proofs.«123720_j33586644255160_2_alg».proof.Proof.EntrywiseRowBlocks

noncomputable section

namespace Cert.KernelIdeal.KReg4

open Cert.KernelIdeal.Gen
open Idealize.ShloMosaic Idealize.ShloMosaic.TcCoe Idealize.ShloMosaic.Pipeline Idealize.ShloMosaic.ValueIdx Cert.RowBlocks

variable (V : (c : Dev nD) → (b : Ref sig .tc) → Buf (Elt Ideal) ((c : Thread nD τ).loc b))

theorem sum3 (x0 x1 x2 : Vec Ideal S8000x64 .f32) (j : S8000x64.Idx) : k4_pay1 x0 x1 x2 j = (x0 j + x1 j) + x2 j := by
  unfold k4_pay1; simp only [shapeCast_self]; rfl
theorem gate (x0 x1 x2 : Vec Ideal S8000x64 .f32) (j : S8000x64.Idx) :
    k4_pay2 x0 x1 x2 j = Ideal.logistic ((x0 j + x1 j) + x2 j) := by
  unfold k4_pay2; show FloatOps.logistic (k4_pay1 x0 x1 x2 j) = _; rw [sum3, Ideal.logistic_def]
theorem resid (x0 x1 x2 x4 : Vec Ideal S8000x64 .f32) (j : S8000x64.Idx) :
    k4_pay3 x0 x1 x2 x4 j = x4 j + ((x0 j + x1 j) + x2 j) := by
  unfold k4_pay3; show addf x4 (k4_pay1 x0 x1 x2) j = _; rw [addf_apply, sum3]
theorem msg (x0 x1 x2 x3 : Vec Ideal S8000x64 .f32) (j : S8000x64.Idx) :
    k4_pay4 x0 x1 x2 x3 j = Ideal.logistic ((x0 j + x1 j) + x2 j) * x3 j := by
  unfold k4_pay4; simp only [shapeCast_self]; show mulf (k4_pay2 x0 x1 x2) x3 j = _; rw [mulf_apply, gate]

theorem hR : 800000 = cfg4.N * 8000 := by rw [show cfg4.N = 100 from N_4]

theorem idx : ∀ (t : Fin cfg4.N) (w : Fin cfg4.W) (a : Fin (cfg4.win w).shape.rank),
    (cfg4.win w).index t a = if a.val = 0 then t.val else 0 :=
  (by decide +kernel : ∀ (t : Fin grid4.N) (w : Fin 8) (a : Fin (cfg4.win w).shape.rank), _)

section
variable (c : Dev nD) (t : Fin cfg4.N) (p : Fin 8000) (q : Fin 64)
theorem emb0 : ((cfg4.win 0).blk t).view.emb (ix2 p q) = rowOf hR t p q :=
  Shape.idx_ext₂ (emb_val (cfg4.win 0) t (ix2 p q) (0 : Fin 2) t.val (idx t 0 (0 : Fin 2)))
    (emb_val (cfg4.win 0) t (ix2 p q) (1 : Fin 2) 0 (idx t 0 (1 : Fin 2)))
theorem emb1 : ((cfg4.win 1).blk t).view.emb (ix2 p q) = rowOf hR t p q :=
  Shape.idx_ext₂ (emb_val (cfg4.win 1) t (ix2 p q) (0 : Fin 2) t.val (idx t 1 (0 : Fin 2)))
    (emb_val (cfg4.win 1) t (ix2 p q) (1 : Fin 2) 0 (idx t 1 (1 : Fin 2)))
theorem emb2 : ((cfg4.win 2).blk t).view.emb (ix2 p q) = rowOf hR t p q :=
  Shape.idx_ext₂ (emb_val (cfg4.win 2) t (ix2 p q) (0 : Fin 2) t.val (idx t 2 (0 : Fin 2)))
    (emb_val (cfg4.win 2) t (ix2 p q) (1 : Fin 2) 0 (idx t 2 (1 : Fin 2)))
theorem emb3 : ((cfg4.win 3).blk t).view.emb (ix2 p q) = rowOf hR t p q :=
  Shape.idx_ext₂ (emb_val (cfg4.win 3) t (ix2 p q) (0 : Fin 2) t.val (idx t 3 (0 : Fin 2)))
    (emb_val (cfg4.win 3) t (ix2 p q) (1 : Fin 2) 0 (idx t 3 (1 : Fin 2)))
theorem emb4 : ((cfg4.win 4).blk t).view.emb (ix2 p q) = rowOf hR t p q :=
  Shape.idx_ext₂ (emb_val (cfg4.win 4) t (ix2 p q) (0 : Fin 2) t.val (idx t 4 (0 : Fin 2)))
    (emb_val (cfg4.win 4) t (ix2 p q) (1 : Fin 2) 0 (idx t 4 (1 : Fin 2)))
theorem emb5 : ((cfg4.win 5).blk t).view.emb (ix2 p q) = rowOf hR t p q :=
  Shape.idx_ext₂ (emb_val (cfg4.win 5) t (ix2 p q) (0 : Fin 2) t.val (idx t 5 (0 : Fin 2)))
    (emb_val (cfg4.win 5) t (ix2 p q) (1 : Fin 2) 0 (idx t 5 (1 : Fin 2)))
theorem emb6 : ((cfg4.win 6).blk t).view.emb (ix2 p q) = rowOf hR t p q :=
  Shape.idx_ext₂ (emb_val (cfg4.win 6) t (ix2 p q) (0 : Fin 2) t.val (idx t 6 (0 : Fin 2)))
    (emb_val (cfg4.win 6) t (ix2 p q) (1 : Fin 2) 0 (idx t 6 (1 : Fin 2)))
theorem emb7 : ((cfg4.win 7).blk t).view.emb (ix2 p q) = rowOf hR t p q :=
  Shape.idx_ext₂ (emb_val (cfg4.win 7) t (ix2 p q) (0 : Fin 2) t.val (idx t 7 (0 : Fin 2)))
    (emb_val (cfg4.win 7) t (ix2 p q) (1 : Fin 2) 0 (idx t 7 (1 : Fin 2)))
theorem rd0 : (iblk4 V c 0 t : Vec Ideal S8000x64 .f32) (ix2 p q) = (V c (Pipeline.arrRef spec4 0) : Gcn.Mat 800000 64) (rowOf hR t p q) := by
  unfold iblk4; rw [View.read_apply, emb0]; rfl
theorem rd1 : (iblk4 V c 1 t : Vec Ideal S8000x64 .f32) (ix2 p q) = (V c (Pipeline.arrRef spec4 1) : Gcn.Mat 800000 64) (rowOf hR t p q) := by
  unfold iblk4; rw [View.read_apply, emb1]; rfl
theorem rd2 : (iblk4 V c 2 t : Vec Ideal S8000x64 .f32) (ix2 p q) = (V c (Pipeline.arrRef spec4 2) : Gcn.Mat 800000 64) (rowOf hR t p q) := by
  unfold iblk4; rw [View.read_apply, emb2]; rfl
theorem rd3 : (iblk4 V c 3 t : Vec Ideal S8000x64 .f32) (ix2 p q) = (V c (Pipeline.arrRef spec4 3) : Gcn.Mat 800000 64) (rowOf hR t p q) := by
  unfold iblk4; rw [View.read_apply, emb3]; rfl
theorem rd4 : (iblk4 V c 4 t : Vec Ideal S8000x64 .f32) (ix2 p q) = (V c (Pipeline.arrRef spec4 4) : Gcn.Mat 800000 64) (rowOf hR t p q) := by
  unfold iblk4; rw [View.read_apply, emb4]; rfl
theorem rd5 (G : Gcn.Mat 800000 64) : ((cfg4.win 5).blk t).view.read (Elt Ideal) G (ix2 p q) = G (rowOf hR t p q) := by
  rw [View.read_apply, emb5]; rfl
theorem rd6 (G : Gcn.Mat 800000 64) : ((cfg4.win 6).blk t).view.read (Elt Ideal) G (ix2 p q) = G (rowOf hR t p q) := by
  rw [View.read_apply, emb6]; rfl
theorem rd7 (G : Gcn.Mat 800000 64) : ((cfg4.win 7).blk t).view.read (Elt Ideal) G (ix2 p q) = G (rowOf hR t p q) := by
  rw [View.read_apply, emb7]; rfl
end

theorem flushed5 (c : Dev nD) (t : Fin cfg4.N) :
    (dat4 (F := Ideal) V c).flushed 5 t = ((cfg4.win 5).blk t).view.read (Elt Ideal)
      (Gcn.resid (V c (Pipeline.arrRef spec4 4)) (Gcn.add3 (V c (Pipeline.arrRef spec4 0)) (V c (Pipeline.arrRef spec4 1)) (V c (Pipeline.arrRef spec4 2))) : Gcn.Mat 800000 64) := by
  show (cfg4.win 5).cut (grid4.coords t) ((dat4 (F := Ideal) V c).after 5 t) = _
  rw [after4_5]
  unfold out4_5
  rw [View.canon_unit_zero off_zero]
  simp only [View.ld_unit_zero (S := S8000x64) off_zero]
  funext j
  obtain ⟨p, q, rfl⟩ : ∃ (p : Fin 8000) (q : Fin 64), j = ix2 p q := ⟨j 0, j 1, eq_ix2 j⟩
  rw [rd5]
  show k4_pay3 (iblk4 V c 0 t) (iblk4 V c 1 t) (iblk4 V c 2 t) (iblk4 V c 4 t) (ix2 p q) = _
  rw [resid, rd0, rd1, rd2, rd4]
  rfl

theorem out_e1 (c : Dev nD) :
    ((Gen.dat4 (F := Ideal) V c).arrAt 5 cfg4.N : Gcn.Mat 800000 64)
      = Gcn.resid (V c (Pipeline.arrRef spec4 4)) (Gcn.add3 (V c (Pipeline.arrRef spec4 0)) (V c (Pipeline.arrRef spec4 1)) (V c (Pipeline.arrRef spec4 2))) :=
  arrAt_eq_of_emb _ 5 _ flush4_5 (flushed5 V c) (exists_emb hR emb5)

theorem flushed6 (c : Dev nD) (t : Fin cfg4.N) :
    (dat4 (F := Ideal) V c).flushed 6 t = ((cfg4.win 6).blk t).view.read (Elt Ideal)
      (Gcn.sigmoid (Gcn.add3 (V c (Pipeline.arrRef spec4 0)) (V c (Pipeline.arrRef spec4 1)) (V c (Pipeline.arrRef spec4 2))) : Gcn.Mat 800000 64) := by
  show (cfg4.win 6).cut (grid4.coords t) ((dat4 (F := Ideal) V c).after 6 t) = _
  rw [after4_6]
  unfold out4_6
  rw [View.canon_unit_zero off_zero]
  simp only [View.ld_unit_zero (S := S8000x64) off_zero]
  funext j
  obtain ⟨p, q, rfl⟩ : ∃ (p : Fin 8000) (q : Fin 64), j = ix2 p q := ⟨j 0, j 1, eq_ix2 j⟩
  rw [rd6]
  show k4_pay2 (iblk4 V c 0 t) (iblk4 V c 1 t) (iblk4 V c 2 t) (ix2 p q) = _
  rw [gate, rd0, rd1, rd2]
  rfl

theorem out_sig (c : Dev nD) :
    ((Gen.dat4 (F := Ideal) V c).arrAt 6 cfg4.N : Gcn.Mat 800000 64)
      = Gcn.sigmoid (Gcn.add3 (V c (Pipeline.arrRef spec4 0)) (V c (Pipeline.arrRef spec4 1)) (V c (Pipeline.arrRef spec4 2))) :=
  arrAt_eq_of_emb _ 6 _ flush4_6 (flushed6 V c) (exists_emb hR emb6)

theorem flushed7 (c : Dev nD) (t : Fin cfg4.N) :
    (dat4 (F := Ideal) V c).flushed 7 t = ((cfg4.win 7).blk t).view.read (Elt Ideal)
      (Gcn.had (Gcn.sigmoid (Gcn.add3 (V c (Pipeline.arrRef spec4 0)) (V c (Pipeline.arrRef spec4 1)) (V c (Pipeline.arrRef spec4 2)))) (V c (Pipeline.arrRef spec4 3)) : Gcn.Mat 800000 64) := by
  show (cfg4.win 7).cut (grid4.coords t) ((dat4 (F := Ideal) V c).after 7 t) = _
  rw [after4_7]
  unfold out4_7
  rw [View.canon_unit_zero off_zero]
  simp only [View.ld_unit_zero (S := S8000x64) off_zero]
  funext j
  obtain ⟨p, q, rfl⟩ : ∃ (p : Fin 8000) (q : Fin 64), j = ix2 p q := ⟨j 0, j 1, eq_ix2 j⟩
  rw [rd7]
  show k4_pay4 (iblk4 V c 0 t) (iblk4 V c 1 t) (iblk4 V c 2 t) (iblk4 V c 3 t) (ix2 p q) = _
  rw [msg, rd0, rd1, rd2, rd3]
  rfl

theorem out_msg (c : Dev nD) :
    ((Gen.dat4 (F := Ideal) V c).arrAt 7 cfg4.N : Gcn.Mat 800000 64)
      = Gcn.had (Gcn.sigmoid (Gcn.add3 (V c (Pipeline.arrRef spec4 0)) (V c (Pipeline.arrRef spec4 1)) (V c (Pipeline.arrRef spec4 2)))) (V c (Pipeline.arrRef spec4 3)) :=
  arrAt_eq_of_emb _ 7 _ flush4_7 (flushed7 V c) (exists_emb hR emb7)

end Cert.KernelIdeal.KReg4

end
-- ==== Proof.KReg5.lean ====
import proofs.«123720_j33586644255160_2_alg».proof.Proof.Gen.KernelIdeal.Frame
import proofs.«123720_j33586644255160_2_alg».proof.Proof.Spec
import proofs.«123720_j33586644255160_2_alg».proof.Proof.EntrywiseRowBlocks

noncomputable section

namespace Cert.KernelIdeal.KReg5

open Cert.KernelIdeal.Gen
open Idealize.ShloMosaic Idealize.ShloMosaic.TcCoe Idealize.ShloMosaic.Pipeline Idealize.ShloMosaic.ValueIdx Cert.RowBlocks

variable (V : (c : Dev nD) → (b : Ref sig .tc) → Buf (Elt Ideal) ((c : Thread nD τ).loc b))

theorem pay (x0 x1 x2 x3 : Vec Ideal S10000x64 .f32) (j : S10000x64.Idx) :
    k5_pay1 (F := Ideal) x0 x1 x2 x3 j = x3 j + (x0 j + Ideal.div (x1 j) (x2 j + Gcn.epsGate)) := by
  unfold k5_pay1; simp only [shapeCast_self]; rfl

theorem hR : 50000 = cfg5.N * 10000 := by rw [show cfg5.N = 5 from N_5]

theorem idx : ∀ (t : Fin cfg5.N) (w : Fin cfg5.W) (a : Fin (cfg5.win w).shape.rank),
    (cfg5.win w).index t a = if a.val = 0 then t.val else 0 :=
  (by decide +kernel : ∀ (t : Fin grid5.N) (w : Fin 5) (a : Fin (cfg5.win w).shape.rank), _)

section
variable (c : Dev nD) (t : Fin cfg5.N) (p : Fin 10000) (q : Fin 64)
theorem emb0 : ((cfg5.win 0).blk t).view.emb (ix2 p q) = rowOf hR t p q :=
  Shape.idx_ext₂ (emb_val (cfg5.win 0) t (ix2 p q) (0 : Fin 2) t.val (idx t 0 (0 : Fin 2)))
    (emb_val (cfg5.win 0) t (ix2 p q) (1 : Fin 2) 0 (idx t 0 (1 : Fin 2)))
theorem emb1 : ((cfg5.win 1).blk t).view.emb (ix2 p q) = rowOf hR t p q :=
  Shape.idx_ext₂ (emb_val (cfg5.win 1) t (ix2 p q) (0 : Fin 2) t.val (idx t 1 (0 : Fin 2)))
    (emb_val (cfg5.win 1) t (ix2 p q) (1 : Fin 2) 0 (idx t 1 (1 : Fin 2)))
theorem emb2 : ((cfg5.win 2).blk t).view.emb (ix2 p q) = rowOf hR t p q :=
  Shape.idx_ext₂ (emb_val (cfg5.win 2) t (ix2 p q) (0 : Fin 2) t.val (idx t 2 (0 : Fin 2)))
    (emb_val (cfg5.win 2) t (ix2 p q) (1 : Fin 2) 0 (idx t 2 (1 : Fin 2)))
theorem emb3 : ((cfg5.win 3).blk t).view.emb (ix2 p q) = rowOf hR t p q :=
  Shape.idx_ext₂ (emb_val (cfg5.win 3) t (ix2 p q) (0 : Fin 2) t.val (idx t 3 (0 : Fin 2)))
    (emb_val (cfg5.win 3) t (ix2 p q) (1 : Fin 2) 0 (idx t 3 (1 : Fin 2)))
theorem emb4 : ((cfg5.win 4).blk t).view.emb (ix2 p q) = rowOf hR t p q :=
  Shape.idx_ext₂ (emb_val (cfg5.win 4) t (ix2 p q) (0 : Fin 2) t.val (idx t 4 (0 : Fin 2)))
    (emb_val (cfg5.win 4) t (ix2 p q) (1 : Fin 2) 0 (idx t 4 (1 : Fin 2)))
theorem rd0 : (iblk5 V c 0 t : Vec Ideal S10000x64 .f32) (ix2 p q) = (V c (Pipeline.arrRef spec5 0) : Gcn.Mat 50000 64) (rowOf hR t p q) := by
  unfold iblk5; rw [View.read_apply, emb0]; rfl
theorem rd1 : (iblk5 V c 1 t : Vec Ideal S10000x64 .f32) (ix2 p q) = (V c (Pipeline.arrRef spec5 1) : Gcn.Mat 50000 64) (rowOf hR t p q) := by
  unfold iblk5; rw [View.read_apply, emb1]; rfl
theorem rd2 : (iblk5 V c 2 t : Vec Ideal S10000x64 .f32) (ix2 p q) = (V c (Pipeline.arrRef spec5 2) : Gcn.Mat 50000 64) (rowOf hR t p q) := by
  unfold iblk5; rw [View.read_apply, emb2]; rfl
theorem rd3 : (iblk5 V c 3 t : Vec Ideal S10000x64 .f32) (ix2 p q) = (V c (Pipeline.arrRef spec5 3) : Gcn.Mat 50000 64) (rowOf hR t p q) := by
  unfold iblk5; rw [View.read_apply, emb3]; rfl
theorem rd4 (G : Gcn.Mat 50000 64) : ((cfg5.win 4).blk t).view.read (Elt Ideal) G (ix2 p q) = G (rowOf hR t p q) := by
  rw [View.read_apply, emb4]; rfl
end

theorem flushed4 (c : Dev nD) (t : Fin cfg5.N) :
    (dat5 (F := Ideal) V c).flushed 4 t = ((cfg5.win 4).blk t).view.read (Elt Ideal)
      (Gcn.gate Gcn.epsGate (V c (Pipeline.arrRef spec5 0)) (V c (Pipeline.arrRef spec5 1)) (V c (Pipeline.arrRef spec5 2)) (V c (Pipeline.arrRef spec5 3)) : Gcn.Mat 50000 64) := by
  show (cfg5.win 4).cut (grid5.coords t) ((dat5 (F := Ideal) V c).after 4 t) = _
  rw [after5_4]
  unfold out5_4
  rw [View.canon_unit_zero off_zero]
  simp only [View.ld_unit_zero (S := S10000x64) off_zero]
  funext j
  obtain ⟨p, q, rfl⟩ : ∃ (p : Fin 10000) (q : Fin 64), j = ix2 p q := ⟨j 0, j 1, eq_ix2 j⟩
  rw [rd4]
  show k5_pay1 (iblk5 V c 0 t) (iblk5 V c 1 t) (iblk5 V c 2 t) (iblk5 V c 3 t) (ix2 p q) = _
  rw [pay, rd0, rd1, rd2, rd3]
  rfl

theorem out (c : Dev nD) :
    ((Gen.dat5 (F := Ideal) V c).arrAt 4 cfg5.N : Gcn.Mat 50000 64)
      = Gcn.gate Gcn.epsGate (V c (Pipeline.arrRef spec5 0)) (V c (Pipeline.arrRef spec5 1))
          (V c (Pipeline.arrRef spec5 2)) (V c (Pipeline.arrRef spec5 3)) :=
  arrAt_eq_of_emb _ 4 _ flush5_4 (flushed4 V c) (exists_emb hR emb4)

end Cert.KernelIdeal.KReg5

end
-- ==== Proof.KComp2.lean ====
import proofs.«123720_j33586644255160_2_alg».proof.Proof.KComp1
import proofs.«123720_j33586644255160_2_alg».proof.Proof.KReg4
import proofs.«123720_j33586644255160_2_alg».proof.Proof.KReg5

set_option maxRecDepth 16384

noncomputable section

open Idealize.ShloMosaic Idealize.ShloMosaic.TcCoe Idealize.ShloMosaic.ValueIdx Idealize.SL.Sem
open Cert.KernelIdeal Cert.KernelIdeal.Gen Cert.KernelIdeal.KComp1

namespace Cert.KernelIdeal.KComp2

variable (m : (ℓ : Loc nD τ sig) → Buf (Elt Ideal) ℓ) (ρ : Dev nD → PrngReg)

theorem keep_arg2_7 (c : Dev nD) : W7 m ρ c (Proc.devRef .tc main_arg2) = m ((c : Thread nD τ).loc main_arg2) :=
  kept m ρ 0 7 c main_arg2
theorem keep_arg3_7 (c : Dev nD) : W7 m ρ c (Proc.devRef .tc main_arg3) = m ((c : Thread nD τ).loc main_arg3) :=
  kept m ρ 0 7 c main_arg3
theorem keep_arg3_9 (c : Dev nD) : W9 m ρ c (Proc.devRef .tc main_arg3) = m ((c : Thread nD τ).loc main_arg3) :=
  kept m ρ 0 9 c main_arg3
theorem keep_arg1_8 (c : Dev nD) : W8 m ρ c (Proc.devRef .tc main_arg1) = m ((c : Thread nD τ).loc main_arg1) :=
  kept m ρ 0 8 c main_arg1
theorem keep_arg0_10 (c : Dev nD) : W10 m ρ c (Proc.devRef .tc main_arg0) = m ((c : Thread nD τ).loc main_arg0) :=
  kept m ρ 0 10 c main_arg0
theorem keep_v36_8 (c : Dev nD) : W8 m ρ c (Proc.devRef .tc main_v36) = W7 m ρ c (Proc.devRef .tc main_v36) :=
  kept m ρ 7 8 c main_v36
theorem keep_v35_0_10 (c : Dev nD) : W10 m ρ c (Proc.devRef .tc main_v35_0) = W7 m ρ c (Proc.devRef .tc main_v35_0) :=
  kept m ρ 7 10 c main_v35_0
theorem keep_v58_0_11 (c : Dev nD) : W11 m ρ c (Proc.devRef .tc main_v58_0) = W9 m ρ c (Proc.devRef .tc main_v58_0) :=
  kept m ρ 9 11 c main_v58_0

def wrapCol (x : (⟨S800000, .i32⟩ : BufTy).Contents (Elt Ideal)) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

def dstCol (c : Dev nD) : (⟨S800000x1, .i32⟩ : BufTy).Contents (Elt Ideal) :=
  broadcastInDim S800000x1 ![0] bcast_S800000_S800000x1_0 (m ((c : Thread nD τ).loc main_arg3))

def zeroRows : FVec Ideal S50000x64 .f32 :=
  broadcastInDim S50000x64 ![] bcast_S_S50000x64 (constant (F := Ideal) S_ .f32 0x00000000#32)

def maps (c : Dev nD) : Gcn.Maps where
  gS X := Host.gather gather_S50000x64_S800000x1_S800000x64_1_0_n_n_0_1_164 X (wrapCol (m ((c : Thread nD τ).loc main_arg2)))
  gD X := Host.gather gather_S50000x64_S800000x1_S800000x64_1_0_n_n_0_1_164 X (wrapCol (m ((c : Thread nD τ).loc main_arg3)))
  sc U := Host.scatterAdd (F := Ideal) (φ := .f32) scatter_S50000x64_S800000x1_S800000x64_1_0_0_1 zeroRows (dstCol m c) U

theorem W8_v43 (c : Dev nD) :
    (W8 m ρ c (Proc.devRef .tc main_v43) : Gcn.Mat 800000 64)
      = Host.gather gather_S50000x64_S800000x1_S800000x64_1_0_n_n_0_1_164 (W7 m ρ c (Proc.devRef .tc main_v35_2))
          (wrapCol (W7 m ρ c (Proc.devRef .tc main_arg2))) := by
  show StableHlo.after hostOps4 (W7 m ρ c) (Proc.devRef .tc main_v43) = _
  dsimp only [hostOps4]
  after_results
  rfl

set_option maxHeartbeats 1600000 in
theorem W8_v50 (c : Dev nD) :
    (W8 m ρ c (Proc.devRef .tc main_v50) : Gcn.Mat 800000 64)
      = Host.gather gather_S50000x64_S800000x1_S800000x64_1_0_n_n_0_1_164 (W7 m ρ c (Proc.devRef .tc main_v35_3))
          (wrapCol (W7 m ρ c (Proc.devRef .tc main_arg3))) := by
  show StableHlo.after hostOps4 (W7 m ρ c) (Proc.devRef .tc main_v50) = _
  dsimp only [hostOps4]
  after_results_simp
  rfl

set_option maxHeartbeats 1600000 in
theorem W8_v57 (c : Dev nD) :
    (W8 m ρ c (Proc.devRef .tc main_v57) : Gcn.Mat 800000 64)
      = Host.gather gather_S50000x64_S800000x1_S800000x64_1_0_n_n_0_1_164 (W7 m ρ c (Proc.devRef .tc main_v35_1))
          (wrapCol (W7 m ρ c (Proc.devRef .tc main_arg2))) := by
  show StableHlo.after hostOps4 (W7 m ρ c) (Proc.devRef .tc main_v57) = _
  dsimp only [hostOps4]
  after_results_simp
  rfl

theorem W9_e1 (c : Dev nD) :
    (W9 m ρ c (Proc.devRef .tc main_v58_0) : Gcn.Mat 800000 64)
      = Gcn.resid (W8 m ρ c (Proc.devRef .tc main_arg1))
          (Gcn.add3 (W8 m ρ c (Proc.devRef .tc main_v43)) (W8 m ρ c (Proc.devRef .tc main_v50))
            (W8 m ρ c (Proc.devRef .tc main_v36))) :=
  (W9_arr m ρ c 5).trans (KReg4.out_e1 (V8 m ρ) c)

theorem W9_sig (c : Dev nD) :
    (W9 m ρ c (Proc.devRef .tc main_v58_1) : Gcn.Mat 800000 64)
      = Gcn.sigmoid (Gcn.add3 (W8 m ρ c (Proc.devRef .tc main_v43)) (W8 m ρ c (Proc.devRef .tc main_v50))
          (W8 m ρ c (Proc.devRef .tc main_v36))) :=
  (W9_arr m ρ c 6).trans (KReg4.out_sig (V8 m ρ) c)

theorem W9_msg (c : Dev nD) :
    (W9 m ρ c (Proc.devRef .tc main_v58_2) : Gcn.Mat 800000 64)
      = Gcn.had (Gcn.sigmoid (Gcn.add3 (W8 m ρ c (Proc.devRef .tc main_v43)) (W8 m ρ c (Proc.devRef .tc main_v50))
          (W8 m ρ c (Proc.devRef .tc main_v36)))) (W8 m ρ c (Proc.devRef .tc main_v57)) :=
  (W9_arr m ρ c 7).trans (KReg4.out_msg (V8 m ρ) c)

theorem en_eq (c : Dev nD) :
    Gcn.add3 (W8 m ρ c (Proc.devRef .tc main_v43)) (W8 m ρ c (Proc.devRef .tc main_v50)) (W8 m ρ c (Proc.devRef .tc main_v36))
      = Gcn.eNew (KDefs.params m c) (maps m c) (Gcn.varClamped Gcn.nNodes) (Gcn.varClamped Gcn.nEdges) := by
  rw [W8_v43, W8_v50, keep_v36_8, pC, pD, pE, keep_arg2_7, keep_arg3_7]
  rfl

theorem W10_v61 (c : Dev nD) :
    (W10 m ρ c (Proc.devRef .tc main_v61) : Gcn.Mat 50000 64)
      = Host.scatterAdd (F := Ideal) (φ := .f32) scatter_S50000x64_S800000x1_S800000x64_1_0_0_1 zeroRows
          (broadcastInDim S800000x1 ![0] bcast_S800000_S800000x1_0 (W9 m ρ c (Proc.devRef .tc main_arg3)))
          (W9 m ρ c (Proc.devRef .tc main_v58_2)) := by
  show StableHlo.after hostOps5 (W9 m ρ c) (Proc.devRef .tc main_v61) = _
  dsimp only [hostOps5]
  after_results
  rfl

theorem W10_v64 (c : Dev nD) :
    (W10 m ρ c (Proc.devRef .tc main_v64) : Gcn.Mat 50000 64)
      = Host.scatterAdd (F := Ideal) (φ := .f32) scatter_S50000x64_S800000x1_S800000x64_1_0_0_1 zeroRows
          (broadcastInDim S800000x1 ![0] bcast_S800000_S800000x1_0 (W9 m ρ c (Proc.devRef .tc main_arg3)))
          (W9 m ρ c (Proc.devRef .tc main_v58_1)) := by
  show StableHlo.after hostOps5 (W9 m ρ c) (Proc.devRef .tc main_v64) = _
  dsimp only [hostOps5]
  after_results
  rfl

theorem W11_h1 (c : Dev nD) :
    (W11 m ρ c (Proc.devRef .tc main_v65) : Gcn.Mat 50000 64)
      = Gcn.gate Gcn.epsGate (W10 m ρ c (Proc.devRef .tc main_v35_0)) (W10 m ρ c (Proc.devRef .tc main_v61))
          (W10 m ρ c (Proc.devRef .tc main_v64)) (W10 m ρ c (Proc.devRef .tc main_arg0)) :=
  (W11_arr m ρ c 4).trans (KReg5.out (V10 m ρ) c)

theorem e1 (c : Dev nD) :
    (W11 m ρ c (Proc.devRef .tc main_v58_0) : Gcn.Mat 800000 64)
      = Gcn.e1 (KDefs.params m c) (maps m c) (Gcn.varClamped Gcn.nNodes) (Gcn.varClamped Gcn.nEdges) := by
  rw [keep_v58_0_11, W9_e1, keep_arg1_8, en_eq]
  rfl

theorem h1 (c : Dev nD) :
    (W11 m ρ c (Proc.devRef .tc main_v65) : Gcn.Mat 50000 64)
      = Gcn.h1 (KDefs.params m c) (maps m c) (Gcn.varClamped Gcn.nNodes) (Gcn.varClamped Gcn.nEdges) := by
  rw [W11_h1, keep_v35_0_10, pA, W10_v61, W10_v64, keep_arg3_9, W9_msg, W9_sig, en_eq, W8_v57, pB, keep_arg2_7, keep_arg0_10]
  rfl

end Cert.KernelIdeal.KComp2

end
-- ==== Proof.KReg6.lean ====
import proofs.«123720_j33586644255160_2_alg».proof.Proof.Gen.KernelIdeal.Frame
import proofs.«123720_j33586644255160_2_alg».proof.Proof.Spec
import proofs.«123720_j33586644255160_2_alg».proof.Proof.BlockColSum

set_option maxRecDepth 16384

noncomputable section

namespace Cert.KernelIdeal.KReg6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Idealize.ShloMosaic.ValueIdx Cert.BlockColSum Gen

variable (V : (c : Dev nD) → (b : Ref sig .tc) → Buf (Elt Ideal) ((c : Thread nD τ).loc b))

section Pieces
variable {F : FTy → Type} [FloatOps F] {c : Dev nD} {i : grid6.Coords} {a1 : Memref sig .tc .vmem S10000x64 .f32} {h1 : a1.IsWhole}
  {a2 : Memref sig .tc .vmem S1x64 .f32} {h2 : a2.IsWhole} {a3 : Memref sig .tc .vmem S1x64 .f32} {h3 : a3.IsWhole}
  {x : Vec F S10000x64 .f32}

-- After the first block the rows hold the updates of the zero row.
theorem out_A (hc : cond6_0 i) :
    out6_A_1 c i a1 h1 a2 h2 a3 h3 hc x = k6_pay4 x (k6_pay1 (F := F))
    ∧ out6_A_2 c i a1 h1 a2 h2 a3 h3 hc x = k6_pay5 x (k6_pay2 (F := F)) := by
  unfold out6_A_1 out6_A_2
  rw [View.read_writes_eq_canon _ _ _ (cover6_A_1 c i a1 h1 a2 h2 a3 h3 hc x),
    View.read_writes_eq_canon _ _ _ (cover6_A_2 c i a1 h1 a2 h2 a3 h3 hc x)]
  unfold kernelRun6_A
  dsimp only
  sl_unfold_words
  constructor <;>
  · rw [View.canon_cons_unit_zero (S := S1x64) hz, View.readCov_unit_zero (S := S1x64) _ hz]
    simp only [View.readAt_eq_ld, h1.read_unread, View.ld_unit_zero (S := S10000x64) hz]

-- After a later block they hold the updates of what they held.
theorem out_B (hc : ¬cond6_0 i) (xo1 xo2 : Vec F S1x64 .f32) :
    out6_B_1 c i a1 h1 a2 h2 a3 h3 hc x xo1 xo2 = k6_pay4 x xo1
    ∧ out6_B_2 c i a1 h1 a2 h2 a3 h3 hc x xo1 xo2 = k6_pay5 x xo2 := by
  unfold out6_B_1 out6_B_2
  rw [View.read_writes_eq_canon _ _ _ (cover6_B_1 c i a1 h1 a2 h2 a3 h3 hc x xo1 xo2),
    View.read_writes_eq_canon _ _ _ (cover6_B_2 c i a1 h1 a2 h2 a3 h3 hc x xo1 xo2)]
  unfold kernelRun6_B
  dsimp only
  sl_unfold_words
  constructor <;>
  · rw [View.canon_unit_zero hz]
    simp only [View.readAt_eq_ld, h1.read_unread, h2.read_unread, h3.read_unread, View.ld_unit_zero (S := S10000x64) hz,
      View.ld_unit_zero (S := S1x64) hz]

end Pieces

theorem pay_self (x : FVec Ideal S10000x64 .f32) : k6_pay3 (F := Ideal) x = x := shapeCast_self x _

-- The two updates add to a row, column by column, the block's column sums and column sums of squares.
theorem pay_apply (x : FVec Ideal S10000x64 .f32) (v : FVec Ideal S1x64 .f32) (j : Fin 64) :
    k6_pay4 (F := Ideal) x v (ix2 0 j) = v (ix2 0 j) + ∑ p : Fin 10000, x (ix2 p j)
    ∧ k6_pay5 (F := Ideal) x v (ix2 0 j) = v (ix2 0 j) + ∑ p : Fin 10000, x (ix2 p j) * x (ix2 p j) :=
  ⟨(addRed_apply v (k6_pay3 x) _ _ _ _ _ j).trans (by rw [pay_self]),
    (addRed_apply v (mulf (k6_pay3 x) (k6_pay3 x)) _ _ _ _ _ j).trans (by rw [pay_self]; rfl)⟩

theorem pay_zero (j : Fin 64) : k6_pay1 (F := Ideal) (ix2 0 j) = 0 ∧ k6_pay2 (F := Ideal) (ix2 0 j) = 0 :=
  ⟨Ideal.ofBits_zero_f32, Ideal.ofBits_zero_f32⟩

abbrev xarr (c : Dev nD) : FVec Ideal S50000x64 .f32 := V c (Pipeline.arrRef spec6 0)
abbrev xblk (c : Dev nD) (t : Fin cfg6.N) : FVec Ideal S10000x64 .f32 := iblk6 V c 0 t
abbrev res (c : Dev nD) : FVec Ideal S1x64 .f32 × FVec Ideal S1x64 .f32 := outsAt6 V c 4 t6_4.isLt

theorem idx_facts : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)

-- Row `p` of block `t` is row `10000 t + p` of the matrix.
theorem xblk_apply (c : Dev nD) (t : Fin cfg6.N) (p : Fin 10000) (j : Fin 64) (h : t.val * 10000 + p.val < 50000) :
    xblk V c t (ix2 p j) = xarr V c (ix2 ⟨t.val * 10000 + p.val, h⟩ j) := by
  unfold xblk iblk6
  rw [View.read_apply]
  show V c (Pipeline.arrRef spec6 0) _ = V c (Pipeline.arrRef spec6 0) _
  congr 1
  exact Shape.idx_ext₂ (by show win6_0.index t 0 * 10000 + 1 * p.val = t.val * 10000 + p.val; rw [(idx_facts t).1]; omega)
    (by show win6_0.index t 1 * 64 + 1 * j.val = j.val; rw [(idx_facts t).2]; omega)

-- After the last block the rows hold the column sums and the column sums of squares of the whole matrix.
theorem stats (c : Dev nD) (j : Fin 64) :
    (res V c).1 (ix2 0 j) = ∑ r : Fin 50000, xarr V c (ix2 r j)
    ∧ (res V c).2 (ix2 0 j) = ∑ r : Fin 50000, xarr V c (ix2 r j) * xarr V c (ix2 r j) :=
  stats_total (congrArg (· * 10000) N_6) (xarr V c) (xblk V c) (xblk_apply V c) (k6_pay4 (F := Ideal)) (k6_pay5 (F := Ideal)) pay_apply
    (k6_pay1 (F := Ideal)) (k6_pay2 (F := Ideal)) pay_zero (outsAt6 V c) (fun h => by rw [outsAt6_A V c ⟨0, h⟩ rfl, (out_A _).1, (out_A _).2])
    (fun n h => by
      rw [outsAt6_B V c ⟨n + 1, h⟩ (by have hN := N_6; dsimp only; omega), (out_B _ _ _).1, (out_B _ _ _).2]; rfl) 4 N_6.symm j

theorem hw1 : (fun a => win6_1.index t6_4 a * main_v66_0.ty.shape.size a) = fun _ => 0 := funext fun a => by fin_cases a <;> decide
theorem hw2 : (fun a => win6_2.index t6_4 a * main_v66_1.ty.shape.size a) = fun _ => 0 := funext fun a => by fin_cases a <;> decide

theorem last_eq (t : Fin cfg6.N) (h : t.val % 5 = 4) : t = t6_4 :=
  Fin.ext (by have := t.isLt; have hN : cfg6.N = 5 := N_6; show t.val = 4; omega)

-- Each array ends holding the row left after the last block.
theorem final1 (c : Dev nD) : (dat6 V c).arrAt 1 cfg6.N = (res V c).1 :=
  (dat6 V c).arrAt_eq_of_cover 1 _ (fun t hf => by
      obtain rfl := last_eq t ((flush6_1 t).mp hf)
      show (cfg6.win 1).cut (grid6.coords t6_4) ((dat6 V c).after 1 t6_4) = _
      rw [after6_1]
      exact (Memref.read_access_unit_zero (Elt Ideal) main_v66_0 hw1 (fun a => by rw [congrFun hw1 a]; simp) (res V c).1).symm)
    fun i => ⟨t6_4, (flush6_1 _).mpr rfl, mem_access_unit_zero main_v66_0 hw1 (fun a => by rw [congrFun hw1 a]; simp) i⟩

theorem final2 (c : Dev nD) : (dat6 V c).arrAt 2 cfg6.N = (res V c).2 :=
  (dat6 V c).arrAt_eq_of_cover 2 _ (fun t hf => by
      obtain rfl := last_eq t ((flush6_2 t).mp hf)
      show (cfg6.win 2).cut (grid6.coords t6_4) ((dat6 V c).after 2 t6_4) = _
      rw [after6_2]
      exact (Memref.read_access_unit_zero (Elt Ideal) main_v66_1 hw2 (fun a => by rw [congrFun hw2 a]; simp) (res V c).2).symm)
    fun i => ⟨t6_4, (flush6_2 _).mpr rfl, mem_access_unit_zero main_v66_1 hw2 (fun a => by rw [congrFun hw2 a]; simp) i⟩

theorem sum_eq (c : Dev nD) :
    Gcn.row ((Gen.dat6 (F := Ideal) V c).arrAt 1 cfg6.N : Gcn.Mat 1 64)
      = Gcn.colSum (V c (Pipeline.arrRef spec6 0) : Gcn.Mat 50000 64) := by
  funext j
  unfold Gcn.row Gcn.colSum
  rw [final1]
  exact (stats V c j).1

theorem sumsq_eq (c : Dev nD) :
    Gcn.row ((Gen.dat6 (F := Ideal) V c).arrAt 2 cfg6.N : Gcn.Mat 1 64)
      = Gcn.colSumSq (V c (Pipeline.arrRef spec6 0) : Gcn.Mat 50000 64) := by
  funext j
  unfold Gcn.row Gcn.colSumSq
  rw [final2]
  exact (stats V c j).2

end Cert.KernelIdeal.KReg6

end
-- ==== Proof.KReg7.lean ====
import proofs.«123720_j33586644255160_2_alg».proof.Proof.Gen.KernelIdeal.Frame
import proofs.«123720_j33586644255160_2_alg».proof.Proof.Spec
import proofs.«123720_j33586644255160_2_alg».proof.Proof.BlockColSum

set_option maxRecDepth 16384

noncomputable section

namespace Cert.KernelIdeal.KReg7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Idealize.ShloMosaic.ValueIdx Cert.BlockColSum Gen

variable (V : (c : Dev nD) → (b : Ref sig .tc) → Buf (Elt Ideal) ((c : Thread nD τ).loc b))

section Pieces
variable {F : FTy → Type} [FloatOps F] {c : Dev nD} {i : grid7.Coords} {a1 : Memref sig .tc .vmem S8000x64 .f32} {h1 : a1.IsWhole}
  {a2 : Memref sig .tc .vmem S1x64 .f32} {h2 : a2.IsWhole} {a3 : Memref sig .tc .vmem S1x64 .f32} {h3 : a3.IsWhole}
  {x : Vec F S8000x64 .f32}

-- After the first block the rows hold the updates of the zero row.
theorem out_A (hc : cond7_0 i) :
    out7_A_1 c i a1 h1 a2 h2 a3 h3 hc x = k7_pay4 x (k7_pay1 (F := F))
    ∧ out7_A_2 c i a1 h1 a2 h2 a3 h3 hc x = k7_pay5 x (k7_pay2 (F := F)) := by
  unfold out7_A_1 out7_A_2
  rw [View.read_writes_eq_canon _ _ _ (cover7_A_1 c i a1 h1 a2 h2 a3 h3 hc x),
    View.read_writes_eq_canon _ _ _ (cover7_A_2 c i a1 h1 a2 h2 a3 h3 hc x)]
  unfold kernelRun7_A
  dsimp only
  sl_unfold_words
  constructor <;>
  · rw [View.canon_cons_unit_zero (S := S1x64) hz, View.readCov_unit_zero (S := S1x64) _ hz]
    simp only [View.readAt_eq_ld, h1.read_unread, View.ld_unit_zero (S := S8000x64) hz]

-- After a later block they hold the updates of what they held.
theorem out_B (hc : ¬cond7_0 i) (xo1 xo2 : Vec F S1x64 .f32) :
    out7_B_1 c i a1 h1 a2 h2 a3 h3 hc x xo1 xo2 = k7_pay4 x xo1
    ∧ out7_B_2 c i a1 h1 a2 h2 a3 h3 hc x xo1 xo2 = k7_pay5 x xo2 := by
  unfold out7_B_1 out7_B_2
  rw [View.read_writes_eq_canon _ _ _ (cover7_B_1 c i a1 h1 a2 h2 a3 h3 hc x xo1 xo2),
    View.read_writes_eq_canon _ _ _ (cover7_B_2 c i a1 h1 a2 h2 a3 h3 hc x xo1 xo2)]
  unfold kernelRun7_B
  dsimp only
  sl_unfold_words
  constructor <;>
  · rw [View.canon_unit_zero hz]
    simp only [View.readAt_eq_ld, h1.read_unread, h2.read_unread, h3.read_unread, View.ld_unit_zero (S := S8000x64) hz,
      View.ld_unit_zero (S := S1x64) hz]

end Pieces

theorem pay_self (x : FVec Ideal S8000x64 .f32) : k7_pay3 (F := Ideal) x = x := shapeCast_self x _

-- The two updates add to a row, column by column, the block's column sums and column sums of squares.
theorem pay_apply (x : FVec Ideal S8000x64 .f32) (v : FVec Ideal S1x64 .f32) (j : Fin 64) :
    k7_pay4 (F := Ideal) x v (ix2 0 j) = v (ix2 0 j) + ∑ p : Fin 8000, x (ix2 p j)
    ∧ k7_pay5 (F := Ideal) x v (ix2 0 j) = v (ix2 0 j) + ∑ p : Fin 8000, x (ix2 p j) * x (ix2 p j) :=
  ⟨(addRed_apply v (k7_pay3 x) _ _ _ _ _ j).trans (by rw [pay_self]),
    (addRed_apply v (mulf (k7_pay3 x) (k7_pay3 x)) _ _ _ _ _ j).trans (by rw [pay_self]; rfl)⟩

theorem pay_zero (j : Fin 64) : k7_pay1 (F := Ideal) (ix2 0 j) = 0 ∧ k7_pay2 (F := Ideal) (ix2 0 j) = 0 :=
  ⟨Ideal.ofBits_zero_f32, Ideal.ofBits_zero_f32⟩

theorem last_lt : 99 < cfg7.N := by rw [show cfg7.N = 100 from N_7]; decide

abbrev tl : Fin cfg7.N := ⟨99, last_lt⟩
abbrev xarr (c : Dev nD) : FVec Ideal S800000x64 .f32 := V c (Pipeline.arrRef spec7 0)
abbrev xblk (c : Dev nD) (t : Fin cfg7.N) : FVec Ideal S8000x64 .f32 := iblk7 V c 0 t
abbrev res (c : Dev nD) : FVec Ideal S1x64 .f32 × FVec Ideal S1x64 .f32 := outsAt7 V c tl.val tl.isLt

theorem idx_facts : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

-- Row `p` of block `t` is row `8000 t + p` of the matrix.
theorem xblk_apply (c : Dev nD) (t : Fin cfg7.N) (p : Fin 8000) (j : Fin 64) (h : t.val * 8000 + p.val < 800000) :
    xblk V c t (ix2 p j) = xarr V c (ix2 ⟨t.val * 8000 + p.val, h⟩ j) := by
  unfold xblk iblk7
  rw [View.read_apply]
  show V c (Pipeline.arrRef spec7 0) _ = V c (Pipeline.arrRef spec7 0) _
  congr 1
  exact Shape.idx_ext₂ (by show win7_0.index t 0 * 8000 + 1 * p.val = t.val * 8000 + p.val; rw [(idx_facts t).1]; omega)
    (by show win7_0.index t 1 * 64 + 1 * j.val = j.val; rw [(idx_facts t).2]; omega)

-- After the last block the rows hold the column sums and the column sums of squares of the whole matrix.
theorem stats (c : Dev nD) (j : Fin 64) :
    (res V c).1 (ix2 0 j) = ∑ r : Fin 800000, xarr V c (ix2 r j)
    ∧ (res V c).2 (ix2 0 j) = ∑ r : Fin 800000, xarr V c (ix2 r j) * xarr V c (ix2 r j) := by
  have := stats_total (congrArg (· * 8000) N_7) (xarr V c) (xblk V c) (xblk_apply V c) (k7_pay4 (F := Ideal)) (k7_pay5 (F := Ideal)) pay_apply
    (k7_pay1 (F := Ideal)) (k7_pay2 (F := Ideal)) pay_zero (outsAt7 V c) (fun h => by rw [outsAt7_A V c ⟨0, h⟩ rfl, (out_A _).1, (out_A _).2])
    (fun n h => by
      rw [outsAt7_B V c ⟨n + 1, h⟩ (by have hN := N_7; dsimp only; omega), (out_B _ _ _).1, (out_B _ _ _).2]; rfl) 99 N_7.symm j
  exact this

theorem hw1 : (fun a => win7_1.index tl a * main_v75_0.ty.shape.size a) = fun _ => 0 := funext fun a => by fin_cases a <;> decide
theorem hw2 : (fun a => win7_2.index tl a * main_v75_1.ty.shape.size a) = fun _ => 0 := funext fun a => by fin_cases a <;> decide

theorem last_eq (t : Fin cfg7.N) (h : t.val % 100 = 99) : t = tl :=
  Fin.ext (by have := t.isLt; have hN : cfg7.N = 100 := N_7; show t.val = 99; omega)

-- A row read back through a block that is the whole of its array is the row itself.
theorem whole1 (G : FVec Ideal S1x64 .f32) :
    (cfg7.win 1).cut (grid7.coords tl) G = ((cfg7.win 1).blk tl).view.read (Elt Ideal) G :=
  (Memref.read_access_unit_zero (Elt Ideal) main_v75_0 hw1 (fun a => by rw [congrFun hw1 a]; simp) G).symm

theorem whole2 (G : FVec Ideal S1x64 .f32) :
    (cfg7.win 2).cut (grid7.coords tl) G = ((cfg7.win 2).blk tl).view.read (Elt Ideal) G :=
  (Memref.read_access_unit_zero (Elt Ideal) main_v75_1 hw2 (fun a => by rw [congrFun hw2 a]; simp) G).symm

-- Each array ends holding the row left after the last block.
theorem final1 (c : Dev nD) : (dat7 V c).arrAt 1 cfg7.N = (res V c).1 :=
  (dat7 V c).arrAt_eq_of_cover 1 _ (fun t hf => by
      obtain rfl := last_eq t ((flush7_1 t).mp hf)
      show (cfg7.win 1).cut (grid7.coords tl) ((dat7 V c).after 1 tl) = _
      rw [after7_1]
      exact whole1 _)
    fun i => ⟨tl, (flush7_1 _).mpr rfl, mem_access_unit_zero main_v75_0 hw1 (fun a => by rw [congrFun hw1 a]; simp) i⟩

theorem final2 (c : Dev nD) : (dat7 V c).arrAt 2 cfg7.N = (res V c).2 :=
  (dat7 V c).arrAt_eq_of_cover 2 _ (fun t hf => by
      obtain rfl := last_eq t ((flush7_2 t).mp hf)
      show (cfg7.win 2).cut (grid7.coords tl) ((dat7 V c).after 2 tl) = _
      rw [after7_2]
      exact whole2 _)
    fun i => ⟨tl, (flush7_2 _).mpr rfl, mem_access_unit_zero main_v75_1 hw2 (fun a => by rw [congrFun hw2 a]; simp) i⟩

theorem sum_eq (c : Dev nD) :
    Gcn.row ((Gen.dat7 (F := Ideal) V c).arrAt 1 cfg7.N : Gcn.Mat 1 64)
      = Gcn.colSum (V c (Pipeline.arrRef spec7 0) : Gcn.Mat 800000 64) := by
  funext j
  unfold Gcn.row Gcn.colSum
  rw [final1]
  exact (stats V c j).1

theorem sumsq_eq (c : Dev nD) :
    Gcn.row ((Gen.dat7 (F := Ideal) V c).arrAt 2 cfg7.N : Gcn.Mat 1 64)
      = Gcn.colSumSq (V c (Pipeline.arrRef spec7 0) : Gcn.Mat 800000 64) := by
  funext j
  unfold Gcn.row Gcn.colSumSq
  rw [final2]
  exact (stats V c j).2

end Cert.KernelIdeal.KReg7

end
-- ==== Proof.FeedForwardRows.lean ====
import proofs.«123720_j33586644255160_2_alg».proof.Proof.BlockLinear
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.FeedForwardRows

open Idealize.ShloMosaic Idealize.ShloMosaic.TcCoe Idealize.ShloMosaic.ValueIdx

theorem rsqrt_apply {s : Shape} {φ : FTy} (a : FVec Ideal s φ) (i : s.Idx) : rsqrt a i = Ideal.rsqrt (a i) := rfl

-- The rows plus two linear maps, a positive part between them, of the rows' batch normalisation.
abbrev ffRows {R : Nat} (X : Gcn.Mat R 64) (mu va g sh : Gcn.Mat 1 64) (W1 : Gcn.Mat 64 128) (b1 : Gcn.Mat 1 128)
    (W2 : Gcn.Mat 128 64) (b2 : Gcn.Mat 1 64) : Gcn.Mat R 64 :=
  Gcn.resid X (Gcn.ff (Gcn.bn Gcn.epsBN (Gcn.row g) (Gcn.row sh) (Gcn.row mu) (Gcn.row va) X) W1 (Gcn.row b1) W2 (Gcn.row b2))

-- Every operation of the stage acts within a row.
theorem ffRows_local {R R' : Nat} (X : Gcn.Mat R 64) (X' : Gcn.Mat R' 64) (mu va g sh : Gcn.Mat 1 64) (W1 : Gcn.Mat 64 128)
    (b1 : Gcn.Mat 1 128) (W2 : Gcn.Mat 128 64) (b2 : Gcn.Mat 1 64) (i : (⟨2, ![R, 64]⟩ : Shape).Idx)
    (i' : (⟨2, ![R', 64]⟩ : Shape).Idx) (hrow : ∀ l : Fin 64, X (ix2 (i 0) l) = X' (ix2 (i' 0) l)) (hcol : i 1 = i' 1) :
    ffRows X mu va g sh W1 b1 W2 b2 i = ffRows X' mu va g sh W1 b1 W2 b2 i' := by
  obtain ⟨r, q, rfl⟩ : ∃ (r : Fin R) (q : Fin 64), i = ix2 r q := ⟨i 0, i 1, eq_ix2 i⟩
  obtain ⟨r', q', rfl⟩ : ∃ (r' : Fin R') (q' : Fin 64), i' = ix2 r' q' := ⟨i' 0, i' 1, eq_ix2 i'⟩
  obtain rfl : q = q' := hcol
  have h : ∀ l : Fin 64, X (ix2 r l) = X' (ix2 r' l) := hrow
  simp only [ffRows, Gcn.resid, Gcn.ff, Gcn.lin_apply, Gcn.relu, Gcn.bn_apply, h]

end Cert.FeedForwardRows

end
-- ==== Proof.KReg8.lean ====
import proofs.«123720_j33586644255160_2_alg».proof.Proof.Gen.KernelIdeal.Frame
import proofs.«123720_j33586644255160_2_alg».proof.Proof.FeedForwardRows

noncomputable section

namespace Cert.KernelIdeal.KReg8

open Cert.KernelIdeal Cert.KernelIdeal.Gen Cert.FeedForwardRows Cert.BlockLinear Idealize.ShloMosaic Idealize.ShloMosaic.TcCoe Idealize.SL.Sem
open Idealize.ShloMosaic.Pipeline (Dat)
open Idealize.ShloMosaic.ValueIdx
open scoped BigOperators

-- Entry by entry the body's arithmetic on a block of rows is the stage's.
theorem out_eq (x0 : Vec Ideal S10000x64 .f32) (x1 x2 x3 x4 : Vec Ideal S1x64 .f32) (x5 : Vec Ideal S64x128 .f32)
    (x6 : Vec Ideal S1x128 .f32) (x7 : Vec Ideal S128x64 .f32) (x8 : Vec Ideal S1x64 .f32) :
    out8_9 (F := Ideal) x0 x1 x2 x3 x4 x5 x6 x7 x8 = ffRows (R := 10000) x0 x1 x2 x3 x4 x5 x6 x7 x8 := by
  unfold out8_9
  rw [View.canon_unit_zero zeroOffsets]
  simp only [View.ld_unit_zero (S := S10000x64) zeroOffsets, View.ld_unit_zero (S := S1x64) zeroOffsets,
    View.ld_unit_zero (S := S64x128) zeroOffsets, View.ld_unit_zero (S := S1x128) zeroOffsets, View.ld_unit_zero (S := S128x64) zeroOffsets]
  funext j
  obtain ⟨p, q, rfl⟩ : ∃ (p : Fin 10000) (q : Fin 64), j = ix2 p q := ⟨j 0, j 1, eq_ix2 j⟩
  unfold k8_pay1 k8_pay3 k8_pay2 k8_pay4
  simp only [addf_apply, mulf_apply, subf_apply, maximumf_apply, truncf_apply, broadcast_apply, rsqrt_apply,
    shapeCast_self, broadcastTo_1b_ab_apply, product_apply dot_S10000x64_S64x128_S10000x128_1_0_0_1_n_n rfl,
    product_apply dot_S10000x128_S128x64_S10000x64_1_0_0_1_n_n rfl, Ideal.ofBits_def, Ideal.ofBits_zero_f32,
    ffRows, Gcn.resid, Gcn.ff, Gcn.lin_apply, Gcn.relu, Gcn.bn_apply, Gcn.row, Gcn.epsBN]

variable (V : (c : Dev nD) → (b : Ref sig .tc) → Buf (Elt Ideal) ((c : Thread nD τ).loc b))

theorem idx_facts : ∀ t : Fin cfg8.N,
    (win8_0.index t (0 : Fin 2) = t.val ∧ win8_0.index t (1 : Fin 2) = 0
      ∧ win8_9.index t (0 : Fin 2) = t.val ∧ win8_9.index t (1 : Fin 2) = 0)
    ∧ (∀ a, win8_1.index t a = 0) ∧ (∀ a, win8_2.index t a = 0) ∧ (∀ a, win8_3.index t a = 0) ∧ (∀ a, win8_4.index t a = 0)
    ∧ (∀ a, win8_5.index t a = 0) ∧ (∀ a, win8_6.index t a = 0) ∧ (∀ a, win8_7.index t a = 0) ∧ (∀ a, win8_8.index t a = 0) :=
  (by decide +kernel : ∀ t : Fin grid8.N, _)

-- At block index zero an element keeps its coordinates, so these blocks are the whole arrays.
theorem blksL (c : Dev nD) (t : Fin cfg8.N) :
    (iblk8 V c 1 t : Gcn.Mat 1 64) = V c (Pipeline.arrRef spec8 1)
    ∧ (iblk8 V c 2 t : Gcn.Mat 1 64) = V c (Pipeline.arrRef spec8 2)
    ∧ (iblk8 V c 3 t : Gcn.Mat 1 64) = V c (Pipeline.arrRef spec8 3)
    ∧ (iblk8 V c 4 t : Gcn.Mat 1 64) = V c (Pipeline.arrRef spec8 4) := by
  have h := (idx_facts t).2
  refine ⟨?_, ?_, ?_, ?_⟩ <;> funext x
  · exact congrArg (V c (Pipeline.arrRef spec8 1)) (funext fun a => Fin.ext (win8_1.rect_emb_val_of_index_zero t a (h.1 a) x))
  · exact congrArg (V c (Pipeline.arrRef spec8 2)) (funext fun a => Fin.ext (win8_2.rect_emb_val_of_index_zero t a (h.2.1 a) x))
  · exact congrArg (V c (Pipeline.arrRef spec8 3)) (funext fun a => Fin.ext (win8_3.rect_emb_val_of_index_zero t a (h.2.2.1 a) x))
  · exact congrArg (V c (Pipeline.arrRef spec8 4)) (funext fun a => Fin.ext (win8_4.rect_emb_val_of_index_zero t a (h.2.2.2.1 a) x))

theorem blksR (c : Dev nD) (t : Fin cfg8.N) :
    (iblk8 V c 5 t : Gcn.Mat 64 128) = V c (Pipeline.arrRef spec8 5)
    ∧ (iblk8 V c 6 t : Gcn.Mat 1 128) = V c (Pipeline.arrRef spec8 6)
    ∧ (iblk8 V c 7 t : Gcn.Mat 128 64) = V c (Pipeline.arrRef spec8 7)
    ∧ (iblk8 V c 8 t : Gcn.Mat 1 64) = V c (Pipeline.arrRef spec8 8) := by
  have h := (idx_facts t).2.2.2.2.2
  refine ⟨?_, ?_, ?_, ?_⟩ <;> funext x
  · exact congrArg (V c (Pipeline.arrRef spec8 5)) (funext fun a => Fin.ext (win8_5.rect_emb_val_of_index_zero t a (h.1 a) x))
  · exact congrArg (V c (Pipeline.arrRef spec8 6)) (funext fun a => Fin.ext (win8_6.rect_emb_val_of_index_zero t a (h.2.1 a) x))
  · exact congrArg (V c (Pipeline.arrRef spec8 7)) (funext fun a => Fin.ext (win8_7.rect_emb_val_of_index_zero t a (h.2.2.1 a) x))
  · exact congrArg (V c (Pipeline.arrRef spec8 8)) (funext fun a => Fin.ext (win8_8.rect_emb_val_of_index_zero t a (h.2.2.2 a) x))

abbrev G (c : Dev nD) : Gcn.Mat 50000 64 :=
  ffRows (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5))
    (V c (Pipeline.arrRef spec8 6)) (V c (Pipeline.arrRef spec8 7)) (V c (Pipeline.arrRef spec8 8))

-- The stage acts within a row, and row p of block t is row 10000 t + p of the array.
theorem flushed_eq (c : Dev nD) (t : Fin cfg8.N) :
    (dat8 V c).flushed 9 t = ((cfg8.win 9).blk t).view.read (Elt Ideal) (G V c) := by
  obtain ⟨h1, h2, h3, h4⟩ := blksL V c t
  obtain ⟨h5, h6, h7, h8⟩ := blksR V c t
  obtain ⟨e0, e1, f0, f1⟩ := (idx_facts t).1
  show (cfg8.win 9).cut (grid8.coords t) ((dat8 V c).after 9 t) = _
  rw [after8_9, out_eq, h1, h2, h3, h4, h5, h6, h7, h8]
  funext j
  refine ffRows_local (R' := 50000) _ (V c (Pipeline.arrRef spec8 0)) _ _ _ _ _ _ _ _ ((cfg8.win 9).xinj (grid8.coords t) j)
    (((cfg8.win 9).blk t).view.emb j) (fun l => ?_) (Fin.ext ?_)
  · show V c (Pipeline.arrRef spec8 0) (((cfg8.win 0).blk t).view.emb _) = _
    refine congrArg _ (funext fun a => Fin.ext ?_)
    match a with
    | ⟨0, _⟩ =>
      show win8_0.index t (0 : Fin 2) * 10000 + 1 * (j 0).val = win8_9.index t (0 : Fin 2) * 10000 + 1 * (j 0).val
      omega
    | ⟨1, _⟩ => show win8_0.index t (1 : Fin 2) * 64 + 1 * l.val = l.val; omega
  · show (j 1).val = win8_9.index t (1 : Fin 2) * 64 + 1 * (j 1).val
    omega

-- Row r lies in the block of point r / 10000.
theorem cover (i : S50000x64.Idx) :
    ∃ t : Fin cfg8.N, (cfg8.win 9).flush t = true ∧ i ∈ ((cfg8.win 9).blk t).view.set := by
  have h0 : (i 0).val < 50000 := (i 0).isLt
  have h1 : (i 1).val < 64 := (i 1).isLt
  have hN : grid8.N = 5 := N_8
  obtain ⟨t, ht⟩ : ∃ t : Fin cfg8.N, t.val = (i 0).val / 10000 :=
    ⟨⟨(i 0).val / 10000, by show (i 0).val / 10000 < grid8.N; omega⟩, rfl⟩
  obtain ⟨-, -, e0, e1⟩ := (idx_facts t).1
  refine ⟨t, flush8_9 t, ?_⟩
  show i ∈ ((View.whole main_v84).slice (win8_9.rect t)).set
  rw [View.set_slice_whole, Rect.mem_set_unit]
  intro a
  match a with
  | ⟨0, _⟩ =>
    show win8_9.index t (0 : Fin 2) * 10000 ≤ (i 0).val ∧ (i 0).val < win8_9.index t (0 : Fin 2) * 10000 + 10000
    omega
  | ⟨1, _⟩ =>
    show win8_9.index t (1 : Fin 2) * 64 ≤ (i 1).val ∧ (i 1).val < win8_9.index t (1 : Fin 2) * 64 + 64
    omega

theorem out (c : Dev nD) :
    ((Gen.dat8 (F := Ideal) V c).arrAt 9 cfg8.N : Gcn.Mat 50000 64)
      = Gcn.resid (V c (Pipeline.arrRef spec8 0))
          (Gcn.ff (Gcn.bn Gcn.epsBN (Gcn.row (V c (Pipeline.arrRef spec8 3))) (Gcn.row (V c (Pipeline.arrRef spec8 4)))
              (Gcn.row (V c (Pipeline.arrRef spec8 1))) (Gcn.row (V c (Pipeline.arrRef spec8 2))) (V c (Pipeline.arrRef spec8 0)))
            (V c (Pipeline.arrRef spec8 5)) (Gcn.row (V c (Pipeline.arrRef spec8 6)))
            (V c (Pipeline.arrRef spec8 7)) (Gcn.row (V c (Pipeline.arrRef spec8 8)))) :=
  (dat8 V c).arrAt_eq_of_cover 9 (G V c) (fun t _ => flushed_eq V c t) cover

end Cert.KernelIdeal.KReg8

end
-- ==== Proof.KReg9.lean ====
import proofs.«123720_j33586644255160_2_alg».proof.Proof.Gen.KernelIdeal.Frame
import proofs.«123720_j33586644255160_2_alg».proof.Proof.FeedForwardRows

noncomputable section

namespace Cert.KernelIdeal.KReg9

open Cert.KernelIdeal Cert.KernelIdeal.Gen Cert.FeedForwardRows Cert.BlockLinear Idealize.ShloMosaic Idealize.ShloMosaic.TcCoe Idealize.SL.Sem
open Idealize.ShloMosaic.Pipeline (Dat)
open Idealize.ShloMosaic.ValueIdx
open scoped BigOperators

-- Entry by entry the body's arithmetic on a block of rows is the stage's.
theorem out_eq (x0 : Vec Ideal S8000x64 .f32) (x1 x2 x3 x4 : Vec Ideal S1x64 .f32) (x5 : Vec Ideal S64x128 .f32)
    (x6 : Vec Ideal S1x128 .f32) (x7 : Vec Ideal S128x64 .f32) (x8 : Vec Ideal S1x64 .f32) :
    out9_9 (F := Ideal) x0 x1 x2 x3 x4 x5 x6 x7 x8 = ffRows (R := 8000) x0 x1 x2 x3 x4 x5 x6 x7 x8 := by
  unfold out9_9
  rw [View.canon_unit_zero zeroOffsets]
  simp only [View.ld_unit_zero (S := S8000x64) zeroOffsets, View.ld_unit_zero (S := S1x64) zeroOffsets,
    View.ld_unit_zero (S := S64x128) zeroOffsets, View.ld_unit_zero (S := S1x128) zeroOffsets, View.ld_unit_zero (S := S128x64) zeroOffsets]
  funext j
  obtain ⟨p, q, rfl⟩ : ∃ (p : Fin 8000) (q : Fin 64), j = ix2 p q := ⟨j 0, j 1, eq_ix2 j⟩
  unfold k9_pay1 k9_pay3 k9_pay2 k9_pay4
  simp only [addf_apply, mulf_apply, subf_apply, maximumf_apply, truncf_apply, broadcast_apply, rsqrt_apply,
    shapeCast_self, broadcastTo_1b_ab_apply, product_apply dot_S8000x64_S64x128_S8000x128_1_0_0_1_n_n rfl,
    product_apply dot_S8000x128_S128x64_S8000x64_1_0_0_1_n_n rfl, Ideal.ofBits_def, Ideal.ofBits_zero_f32,
    ffRows, Gcn.resid, Gcn.ff, Gcn.lin_apply, Gcn.relu, Gcn.bn_apply, Gcn.row, Gcn.epsBN]

variable (V : (c : Dev nD) → (b : Ref sig .tc) → Buf (Elt Ideal) ((c : Thread nD τ).loc b))

theorem idx_facts : ∀ t : Fin cfg9.N,
    (win9_0.index t (0 : Fin 2) = t.val ∧ win9_0.index t (1 : Fin 2) = 0
      ∧ win9_9.index t (0 : Fin 2) = t.val ∧ win9_9.index t (1 : Fin 2) = 0)
    ∧ (∀ a, win9_1.index t a = 0) ∧ (∀ a, win9_2.index t a = 0) ∧ (∀ a, win9_3.index t a = 0) ∧ (∀ a, win9_4.index t a = 0)
    ∧ (∀ a, win9_5.index t a = 0) ∧ (∀ a, win9_6.index t a = 0) ∧ (∀ a, win9_7.index t a = 0) ∧ (∀ a, win9_8.index t a = 0) :=
  (by decide +kernel : ∀ t : Fin grid9.N, _)

-- At block index zero an element keeps its coordinates, so these blocks are the whole arrays.
theorem blksL (c : Dev nD) (t : Fin cfg9.N) :
    (iblk9 V c 1 t : Gcn.Mat 1 64) = V c (Pipeline.arrRef spec9 1)
    ∧ (iblk9 V c 2 t : Gcn.Mat 1 64) = V c (Pipeline.arrRef spec9 2)
    ∧ (iblk9 V c 3 t : Gcn.Mat 1 64) = V c (Pipeline.arrRef spec9 3)
    ∧ (iblk9 V c 4 t : Gcn.Mat 1 64) = V c (Pipeline.arrRef spec9 4) := by
  have h := (idx_facts t).2
  refine ⟨?_, ?_, ?_, ?_⟩ <;> funext x
  · exact congrArg (V c (Pipeline.arrRef spec9 1)) (funext fun a => Fin.ext (win9_1.rect_emb_val_of_index_zero t a (h.1 a) x))
  · exact congrArg (V c (Pipeline.arrRef spec9 2)) (funext fun a => Fin.ext (win9_2.rect_emb_val_of_index_zero t a (h.2.1 a) x))
  · exact congrArg (V c (Pipeline.arrRef spec9 3)) (funext fun a => Fin.ext (win9_3.rect_emb_val_of_index_zero t a (h.2.2.1 a) x))
  · exact congrArg (V c (Pipeline.arrRef spec9 4)) (funext fun a => Fin.ext (win9_4.rect_emb_val_of_index_zero t a (h.2.2.2.1 a) x))

theorem blksR (c : Dev nD) (t : Fin cfg9.N) :
    (iblk9 V c 5 t : Gcn.Mat 64 128) = V c (Pipeline.arrRef spec9 5)
    ∧ (iblk9 V c 6 t : Gcn.Mat 1 128) = V c (Pipeline.arrRef spec9 6)
    ∧ (iblk9 V c 7 t : Gcn.Mat 128 64) = V c (Pipeline.arrRef spec9 7)
    ∧ (iblk9 V c 8 t : Gcn.Mat 1 64) = V c (Pipeline.arrRef spec9 8) := by
  have h := (idx_facts t).2.2.2.2.2
  refine ⟨?_, ?_, ?_, ?_⟩ <;> funext x
  · exact congrArg (V c (Pipeline.arrRef spec9 5)) (funext fun a => Fin.ext (win9_5.rect_emb_val_of_index_zero t a (h.1 a) x))
  · exact congrArg (V c (Pipeline.arrRef spec9 6)) (funext fun a => Fin.ext (win9_6.rect_emb_val_of_index_zero t a (h.2.1 a) x))
  · exact congrArg (V c (Pipeline.arrRef spec9 7)) (funext fun a => Fin.ext (win9_7.rect_emb_val_of_index_zero t a (h.2.2.1 a) x))
  · exact congrArg (V c (Pipeline.arrRef spec9 8)) (funext fun a => Fin.ext (win9_8.rect_emb_val_of_index_zero t a (h.2.2.2 a) x))

abbrev G (c : Dev nD) : Gcn.Mat 800000 64 :=
  ffRows (V c (Pipeline.arrRef spec9 0)) (V c (Pipeline.arrRef spec9 1)) (V c (Pipeline.arrRef spec9 2))
    (V c (Pipeline.arrRef spec9 3)) (V c (Pipeline.arrRef spec9 4)) (V c (Pipeline.arrRef spec9 5))
    (V c (Pipeline.arrRef spec9 6)) (V c (Pipeline.arrRef spec9 7)) (V c (Pipeline.arrRef spec9 8))

-- The stage acts within a row, and row p of block t is row 8000 t + p of the array.
theorem flushed_eq (c : Dev nD) (t : Fin cfg9.N) :
    (dat9 V c).flushed 9 t = ((cfg9.win 9).blk t).view.read (Elt Ideal) (G V c) := by
  obtain ⟨h1, h2, h3, h4⟩ := blksL V c t
  obtain ⟨h5, h6, h7, h8⟩ := blksR V c t
  obtain ⟨e0, e1, f0, f1⟩ := (idx_facts t).1
  show (cfg9.win 9).cut (grid9.coords t) ((dat9 V c).after 9 t) = _
  rw [after9_9, out_eq, h1, h2, h3, h4, h5, h6, h7, h8]
  funext j
  refine ffRows_local (R' := 800000) _ (V c (Pipeline.arrRef spec9 0)) _ _ _ _ _ _ _ _ ((cfg9.win 9).xinj (grid9.coords t) j)
    (((cfg9.win 9).blk t).view.emb j) (fun l => ?_) (Fin.ext ?_)
  · show V c (Pipeline.arrRef spec9 0) (((cfg9.win 0).blk t).view.emb _) = _
    refine congrArg _ (funext fun a => Fin.ext ?_)
    match a with
    | ⟨0, _⟩ =>
      show win9_0.index t (0 : Fin 2) * 8000 + 1 * (j 0).val = win9_9.index t (0 : Fin 2) * 8000 + 1 * (j 0).val
      omega
    | ⟨1, _⟩ => show win9_0.index t (1 : Fin 2) * 64 + 1 * l.val = l.val; omega
  · show (j 1).val = win9_9.index t (1 : Fin 2) * 64 + 1 * (j 1).val
    omega

-- Row r lies in the block of point r / 8000.
theorem cover (i : S800000x64.Idx) :
    ∃ t : Fin cfg9.N, (cfg9.win 9).flush t = true ∧ i ∈ ((cfg9.win 9).blk t).view.set := by
  have h0 : (i 0).val < 800000 := (i 0).isLt
  have h1 : (i 1).val < 64 := (i 1).isLt
  have hN : grid9.N = 100 := N_9
  obtain ⟨t, ht⟩ : ∃ t : Fin cfg9.N, t.val = (i 0).val / 8000 :=
    ⟨⟨(i 0).val / 8000, by show (i 0).val / 8000 < grid9.N; omega⟩, rfl⟩
  obtain ⟨-, -, e0, e1⟩ := (idx_facts t).1
  refine ⟨t, flush9_9 t, ?_⟩
  show i ∈ ((View.whole main_v85).slice (win9_9.rect t)).set
  rw [View.set_slice_whole, Rect.mem_set_unit]
  intro a
  match a with
  | ⟨0, _⟩ =>
    show win9_9.index t (0 : Fin 2) * 8000 ≤ (i 0).val ∧ (i 0).val < win9_9.index t (0 : Fin 2) * 8000 + 8000
    omega
  | ⟨1, _⟩ =>
    show win9_9.index t (1 : Fin 2) * 64 ≤ (i 1).val ∧ (i 1).val < win9_9.index t (1 : Fin 2) * 64 + 64
    omega

theorem out (c : Dev nD) :
    ((Gen.dat9 (F := Ideal) V c).arrAt 9 cfg9.N : Gcn.Mat 800000 64)
      = Gcn.resid (V c (Pipeline.arrRef spec9 0))
          (Gcn.ff (Gcn.bn Gcn.epsBN (Gcn.row (V c (Pipeline.arrRef spec9 3))) (Gcn.row (V c (Pipeline.arrRef spec9 4)))
              (Gcn.row (V c (Pipeline.arrRef spec9 1))) (Gcn.row (V c (Pipeline.arrRef spec9 2))) (V c (Pipeline.arrRef spec9 0)))
            (V c (Pipeline.arrRef spec9 5)) (Gcn.row (V c (Pipeline.arrRef spec9 6))) (V c (Pipeline.arrRef spec9 7)) (Gcn.row (V c (Pipeline.arrRef spec9 8)))) :=
  (dat9 V c).arrAt_eq_of_cover 9 (G V c) (fun t _ => flushed_eq V c t) cover

end Cert.KernelIdeal.KReg9

end
-- ==== Proof.KComp3.lean ====
import proofs.«123720_j33586644255160_2_alg».proof.Proof.KComp1
import proofs.«123720_j33586644255160_2_alg».proof.Proof.KReg6
import proofs.«123720_j33586644255160_2_alg».proof.Proof.KReg7
import proofs.«123720_j33586644255160_2_alg».proof.Proof.KReg8
import proofs.«123720_j33586644255160_2_alg».proof.Proof.KReg9

set_option maxRecDepth 16384

noncomputable section

namespace Cert.KernelIdeal.KComp3

open Cert.KernelIdeal Cert.KernelIdeal.Gen Cert.KernelIdeal.KComp1
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem stats_h (c : Dev nD) (H1 : Gcn.Mat 50000 64) (hH : (W11 m ρ c (Proc.devRef .tc main_v65) : Gcn.Mat 50000 64) = H1) :
    Gcn.row (W13 m ρ c (Proc.devRef .tc main_v68) : Gcn.Mat 1 64) = Gcn.mean Gcn.nNodes H1
      ∧ Gcn.row (W13 m ρ c (Proc.devRef .tc main_v74) : Gcn.Mat 1 64) = Gcn.varClamped Gcn.nNodes H1 :=
  host_stats (s := W12 m ρ c (Proc.devRef .tc main_v66_0)) (q := W12 m ρ c (Proc.devRef .tc main_v66_1))
    ((congrArg Gcn.row (W12_arr m ρ c 1)).trans ((KReg6.sum_eq (V11 m ρ) c).trans (congrArg Gcn.colSum hH)))
    ((congrArg Gcn.row (W12_arr m ρ c 2)).trans ((KReg6.sumsq_eq (V11 m ρ) c).trans (congrArg Gcn.colSumSq hH)))
    (by show StableHlo.after hostOps7 _ _ = _; after_results <;> rfl)
    (by show StableHlo.after hostOps7 _ _ = _; after_results <;> rfl)

theorem stats_e (c : Dev nD) (E1 : Gcn.Mat 800000 64) (hE : (W11 m ρ c (Proc.devRef .tc main_v58_0) : Gcn.Mat 800000 64) = E1) :
    Gcn.row (W15 m ρ c (Proc.devRef .tc main_v77) : Gcn.Mat 1 64) = Gcn.mean Gcn.nEdges E1
      ∧ Gcn.row (W15 m ρ c (Proc.devRef .tc main_v83) : Gcn.Mat 1 64) = Gcn.varClamped Gcn.nEdges E1 :=
  host_stats (s := W14 m ρ c (Proc.devRef .tc main_v75_0)) (q := W14 m ρ c (Proc.devRef .tc main_v75_1))
    ((congrArg Gcn.row (W14_arr m ρ c 1)).trans
      ((KReg7.sum_eq (V13 m ρ) c).trans (congrArg Gcn.colSum ((kept m ρ 11 13 c main_v58_0).trans hE))))
    ((congrArg Gcn.row (W14_arr m ρ c 2)).trans
      ((KReg7.sumsq_eq (V13 m ρ) c).trans (congrArg Gcn.colSumSq ((kept m ρ 11 13 c main_v58_0).trans hE))))
    (by show StableHlo.after hostOps8 _ _ = _; after_results <;> rfl)
    (by show StableHlo.after hostOps8 _ _ = _; after_results <;> rfl)

theorem block_congr {R : Nat} {X X' N N' : Gcn.Mat R 64} {A A' : Gcn.Mat 64 128} {p p' : Gcn.RowV 128} {B B' : Gcn.Mat 128 64}
    {q q' : Gcn.RowV 64} (hX : X = X') (hN : N = N') (hA : A = A') (hp : p = p') (hB : B = B') (hq : q = q') :
    Gcn.resid X (Gcn.ff N A p B q) = Gcn.resid X' (Gcn.ff N' A' p' B' q') := by rw [hX, hN, hA, hp, hB, hq]

theorem hn (c : Dev nD) (H1 : Gcn.Mat 50000 64) (hH : (W11 m ρ c (Proc.devRef .tc main_v65) : Gcn.Mat 50000 64) = H1) :
    Gcn.bn Gcn.epsBN (Gcn.row (V15 m ρ c (Pipeline.arrRef spec8 3) : Gcn.Mat 1 64)) (Gcn.row (V15 m ρ c (Pipeline.arrRef spec8 4) : Gcn.Mat 1 64))
        (Gcn.row (V15 m ρ c (Pipeline.arrRef spec8 1) : Gcn.Mat 1 64)) (Gcn.row (V15 m ρ c (Pipeline.arrRef spec8 2) : Gcn.Mat 1 64))
        (V15 m ρ c (Pipeline.arrRef spec8 0) : Gcn.Mat 50000 64)
      = Gcn.bn Gcn.epsBN (Gcn.vec (m ((c : Thread nD τ).loc main_arg16))) (Gcn.vec (m ((c : Thread nD τ).loc main_arg20)))
          (Gcn.mean Gcn.nNodes H1) (Gcn.varClamped Gcn.nNodes H1) H1 :=
  bn_congr ((kept m ρ 11 15 c main_v65).trans hH)
    ((congrArg Gcn.row (kept m ρ 13 15 c main_v68)).trans (stats_h m ρ c H1 hH).1)
    ((congrArg Gcn.row (kept m ρ 13 15 c main_v74)).trans (stats_h m ρ c H1 hH).2)
    (arg_row (kept m ρ 1 15 c main_v4)) (arg_row (kept m ρ 1 15 c main_v5))

theorem en (c : Dev nD) (E1 : Gcn.Mat 800000 64) (hE : (W11 m ρ c (Proc.devRef .tc main_v58_0) : Gcn.Mat 800000 64) = E1) :
    Gcn.bn Gcn.epsBN (Gcn.row (V16 m ρ c (Pipeline.arrRef spec9 3) : Gcn.Mat 1 64)) (Gcn.row (V16 m ρ c (Pipeline.arrRef spec9 4) : Gcn.Mat 1 64))
        (Gcn.row (V16 m ρ c (Pipeline.arrRef spec9 1) : Gcn.Mat 1 64)) (Gcn.row (V16 m ρ c (Pipeline.arrRef spec9 2) : Gcn.Mat 1 64))
        (V16 m ρ c (Pipeline.arrRef spec9 0) : Gcn.Mat 800000 64)
      = Gcn.bn Gcn.epsBN (Gcn.vec (m ((c : Thread nD τ).loc main_arg17))) (Gcn.vec (m ((c : Thread nD τ).loc main_arg21)))
          (Gcn.mean Gcn.nEdges E1) (Gcn.varClamped Gcn.nEdges E1) E1 :=
  bn_congr ((kept m ρ 11 16 c main_v58_0).trans hE)
    ((congrArg Gcn.row (kept m ρ 15 16 c main_v77)).trans (stats_e m ρ c E1 hE).1)
    ((congrArg Gcn.row (kept m ρ 15 16 c main_v83)).trans (stats_e m ρ c E1 hE).2)
    (arg_row (kept m ρ 1 16 c main_v6)) (arg_row (kept m ρ 1 16 c main_v7))

theorem hOut (c : Dev nD) (H1 : Gcn.Mat 50000 64)
    (hH : (W11 m ρ c (Proc.devRef .tc main_v65) : Gcn.Mat 50000 64) = H1) :
    (W17 m ρ c (Proc.devRef .tc main_v84) : Gcn.Mat 50000 64)
      = Gcn.resid H1
          (Gcn.ff (Gcn.bn Gcn.epsBN (Gcn.vec (m ((c : Thread nD τ).loc main_arg16))) (Gcn.vec (m ((c : Thread nD τ).loc main_arg20)))
              (Gcn.mean Gcn.nNodes H1) (Gcn.varClamped Gcn.nNodes H1) H1)
            (m ((c : Thread nD τ).loc main_arg22)) (Gcn.vec (m ((c : Thread nD τ).loc main_arg23)))
            (m ((c : Thread nD τ).loc main_arg24)) (Gcn.vec (m ((c : Thread nD τ).loc main_arg25)))) :=
  (kept m ρ 16 17 c main_v84).trans <| (W16_arr m ρ c 9).trans <| (KReg8.out (V15 m ρ) c).trans <|
    block_congr ((kept m ρ 11 15 c main_v65).trans hH) (hn m ρ c H1 hH) (kept m ρ 0 15 c main_arg22)
      (arg_row (kept m ρ 1 15 c main_v13)) (kept m ρ 0 15 c main_arg24) (arg_row (kept m ρ 1 15 c main_v14))

theorem eOut (c : Dev nD) (E1 : Gcn.Mat 800000 64)
    (hE : (W11 m ρ c (Proc.devRef .tc main_v58_0) : Gcn.Mat 800000 64) = E1) :
    (W17 m ρ c (Proc.devRef .tc main_v85) : Gcn.Mat 800000 64)
      = Gcn.resid E1
          (Gcn.ff (Gcn.bn Gcn.epsBN (Gcn.vec (m ((c : Thread nD τ).loc main_arg17))) (Gcn.vec (m ((c : Thread nD τ).loc main_arg21)))
              (Gcn.mean Gcn.nEdges E1) (Gcn.varClamped Gcn.nEdges E1) E1)
            (m ((c : Thread nD τ).loc main_arg26)) (Gcn.vec (m ((c : Thread nD τ).loc main_arg27)))
            (m ((c : Thread nD τ).loc main_arg28)) (Gcn.vec (m ((c : Thread nD τ).loc main_arg29)))) :=
  (W17_arr m ρ c 9).trans <| (KReg9.out (V16 m ρ) c).trans <|
    block_congr ((kept m ρ 11 16 c main_v58_0).trans hE) (en m ρ c E1 hE) (kept m ρ 0 16 c main_arg26)
      (arg_row (kept m ρ 1 16 c main_v15)) (kept m ρ 0 16 c main_arg28) (arg_row (kept m ρ 1 16 c main_v16))

end Cert.KernelIdeal.KComp3

end
-- ==== Proof.LibRowOps.lean ====
import Idealize.ShloMosaic.PureOps.Ideal

namespace RowOps

open Idealize.ShloMosaic

/-- Rows of an `[N, C]` matrix taken at a column `[E, 1]` of row numbers: the result is `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Rows `[E, C]` added into an `[N, C]` matrix at a column `[E, 1]` of row numbers. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

end RowOps
-- ==== Proof.RealEntries.lean ====
import Idealize.ShloMosaic.PureOps.Ideal

namespace Gcn

open Idealize.ShloMosaic

variable {x y : EReal}

/-- `x` is a real number. -/
abbrev Re (x : EReal) : Prop := x ≠ ⊤ ∧ x ≠ ⊥
/-- `x` is a positive real number. -/
abbrev Pos (x : EReal) : Prop := ∃ r : ℝ, 0 < r ∧ x = r

theorem re_coe (r : ℝ) : Re r := ⟨EReal.coe_ne_top r, EReal.coe_ne_bot r⟩

theorem re_add (hx : Re x) (hy : Re y) : Re (x + y) := by
  lift x to ℝ using hx; lift y to ℝ using hy; exact re_coe (x + y)

theorem re_sub (hx : Re x) (hy : Re y) : Re (x - y) := by
  lift x to ℝ using hx; lift y to ℝ using hy; exact re_coe (x - y)

theorem re_mul (hx : Re x) (hy : Re y) : Re (x * y) := by
  lift x to ℝ using hx; lift y to ℝ using hy; exact re_coe (x * y)

theorem re_sum {ι : Type} (s : Finset ι) {f : ι → EReal} (h : ∀ i ∈ s, Re (f i)) : Re (∑ i ∈ s, f i) :=
  Finset.sum_induction f Re (fun _ _ => re_add) (re_coe 0) h

/-- A non-negative real plus a positive real is a positive real. -/
theorem pos_add (hx : Re x) (h0 : 0 ≤ x) (hy : Pos y) : Pos (x + y) := by
  lift x to ℝ using hx; obtain ⟨b, hb, rfl⟩ := hy
  exact ⟨x + b, add_pos_of_nonneg_of_pos (EReal.coe_nonneg.1 h0) hb, rfl⟩

theorem re_rsqrt (hx : Pos x) : Re (Ideal.rsqrt x) := by
  obtain ⟨r, hr, rfl⟩ := hx
  rw [Ideal.rsqrt_coe, if_neg (not_lt.2 hr.le), if_neg hr.ne']
  exact re_coe _

theorem re_div (hx : Re x) (hy : Pos y) : Re (Ideal.div x y) := by
  obtain ⟨r, hr, rfl⟩ := hy
  rw [Ideal.div_coe hr.ne']
  exact re_mul hx (re_coe _)

/-- The logistic function of a real number lies between 0 and 1. -/
theorem re_logistic (hx : Re x) : Re (Ideal.logistic x) ∧ 0 ≤ Ideal.logistic x := by
  lift x to ℝ using hx
  rw [Ideal.logistic_coe]
  exact ⟨re_coe _, EReal.coe_nonneg.2 (inv_nonneg.2 (add_pos one_pos (Real.exp_pos _)).le)⟩

end Gcn
-- ==== Proof.IdxMaps.lean ====
import proofs.«123720_j33586644255160_2_alg».proof.Proof.Spec
import proofs.«123720_j33586644255160_2_alg».proof.Proof.LibRowOps
import proofs.«123720_j33586644255160_2_alg».proof.Proof.RealEntries
import Idealize.ShloMosaic.PureOps.Ideal.Laws

noncomputable section

namespace Gcn

open Idealize.ShloMosaic Idealize.ShloMosaic.ValueIdx

/-- The index column in which a negative entry has 50000 added. -/
def wrapCol (hb : (⟨0, ![]⟩ : Shape).BroadcastsInDim ⟨1, ![800000]⟩ ![])
    (hc : (⟨1, ![800000]⟩ : Shape).BroadcastsInDim ⟨2, ![800000, 1]⟩ ![0])
    (idx : IVec ⟨1, ![800000]⟩ 32) : IVec ⟨2, ![800000, 1]⟩ 32 :=
  broadcastInDim ⟨2, ![800000, 1]⟩ ![0] hc
    (select (cmpi .slt idx (broadcastInDim ⟨1, ![800000]⟩ ![] hb (constantI ⟨0, ![]⟩ 32 0#32)))
      (addi idx (broadcastInDim ⟨1, ![800000]⟩ ![] hb (constantI ⟨0, ![]⟩ 32 50000#32)))
      idx)

/-- The index vector as one column. -/
def plainCol (hc : (⟨1, ![800000]⟩ : Shape).BroadcastsInDim ⟨2, ![800000, 1]⟩ ![0])
    (idx : IVec ⟨1, ![800000]⟩ 32) : IVec ⟨2, ![800000, 1]⟩ 32 :=
  broadcastInDim ⟨2, ![800000, 1]⟩ ![0] hc idx

/-- Node rows gathered along the wrapped columns; edge rows added into zero rows along the plain destination column. -/
def mkMaps (wfG : GatherDims.WF ⟨2, ![50000, 64]⟩ ⟨2, ![800000, 1]⟩ ⟨2, ![800000, 64]⟩ [1] [0] [] [0] [] 1 ![1, 64])
    (wfS : ScatterDims.WF ⟨2, ![50000, 64]⟩ ⟨2, ![800000, 1]⟩ ⟨2, ![800000, 64]⟩ [1] [0] [0] 1)
    (hb : (⟨0, ![]⟩ : Shape).BroadcastsInDim ⟨1, ![800000]⟩ ![])
    (hc : (⟨1, ![800000]⟩ : Shape).BroadcastsInDim ⟨2, ![800000, 1]⟩ ![0])
    (hz : (⟨0, ![]⟩ : Shape).BroadcastsInDim ⟨2, ![50000, 64]⟩ ![])
    (src dst : IVec ⟨1, ![800000]⟩ 32) : Maps where
  gS X := Host.gather (RowOps.gatherDims 50000 800000 64 wfG) X (wrapCol hb hc src)
  gD X := Host.gather (RowOps.gatherDims 50000 800000 64 wfG) X (wrapCol hb hc dst)
  sc U := Host.scatterAdd (F := Ideal) (RowOps.scatterDims 50000 800000 64 wfS)
    (broadcastInDim ⟨2, ![50000, 64]⟩ ![] hz (constant ⟨0, ![]⟩ .f32 0x00000000#32)) (plainCol hc dst) U

/-- An entry of a scatter-add into zeros is the sum of the update entries that land on it. -/
theorem scatterAdd_zeros {s si su : Shape} {w : Nat} (d : ScatterDims s si su)
    (hz : (⟨0, ![]⟩ : Shape).BroadcastsInDim s ![]) (idx : IVec si w) (U : su.Idx → EReal) (i : s.Idx) :
    Host.scatterAdd (F := Ideal) (φ := .f32) d (broadcastInDim s ![] hz (constant ⟨0, ![]⟩ .f32 0x00000000#32)) idx U i
      = ∑ j ∈ Finset.univ.filter (fun j => d.resultIdx? j idx = some i), U j := by
  unfold Host.scatterAdd
  rw [Ideal.hostScatterAdd_def]
  unfold Ideal.hostScatterAdd broadcastInDim constant
  rw [Ideal.ofBits_def, Ideal.ofBits_zero_f32, zero_add]

/-- A gathered entry is an entry of the operand; a scattered entry is a finite sum of update entries. -/
theorem mkMaps_sane (wfG : GatherDims.WF ⟨2, ![50000, 64]⟩ ⟨2, ![800000, 1]⟩ ⟨2, ![800000, 64]⟩ [1] [0] [] [0] [] 1 ![1, 64])
    (wfS : ScatterDims.WF ⟨2, ![50000, 64]⟩ ⟨2, ![800000, 1]⟩ ⟨2, ![800000, 64]⟩ [1] [0] [0] 1)
    (hb : (⟨0, ![]⟩ : Shape).BroadcastsInDim ⟨1, ![800000]⟩ ![])
    (hc : (⟨1, ![800000]⟩ : Shape).BroadcastsInDim ⟨2, ![800000, 1]⟩ ![0])
    (hz : (⟨0, ![]⟩ : Shape).BroadcastsInDim ⟨2, ![50000, 64]⟩ ![])
    (src dst : IVec ⟨1, ![800000]⟩ 32) : (mkMaps wfG wfS hb hc hz src dst).Sane where
  gS _ hX _ := hX _
  gD _ hX _ := hX _
  sc X hX i := by
    rw [show (mkMaps wfG wfS hb hc hz src dst).sc X i = _ from scatterAdd_zeros _ hz _ X i]
    exact re_sum _ fun j _ => hX j
  sc_nonneg X _ hX i := by
    rw [show (mkMaps wfG wfS hb hc hz src dst).sc X i = _ from scatterAdd_zeros _ hz _ X i]
    exact Finset.sum_nonneg fun j _ => hX j

end Gcn

end
-- ==== Proof.KFinal.lean ====
import proofs.«123720_j33586644255160_2_alg».proof.Proof.KComp1
import proofs.«123720_j33586644255160_2_alg».proof.Proof.KComp2
import proofs.«123720_j33586644255160_2_alg».proof.Proof.KComp3
import proofs.«123720_j33586644255160_2_alg».proof.Proof.KDefs
import proofs.«123720_j33586644255160_2_alg».proof.Proof.IdxMaps

set_option maxRecDepth 16384

noncomputable section

namespace Cert.KernelIdeal.KFinal

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem v84 (c : Dev nD) :
    (W17 m ρ c (Proc.devRef .tc main_v84) : Gcn.Mat 50000 64)
      = Gcn.hOut (KDefs.params m c) (KComp2.maps m c) (Gcn.varClamped Gcn.nNodes) (Gcn.varClamped Gcn.nEdges) :=
  KComp3.hOut m ρ c _ (KComp2.h1 m ρ c)

theorem v85 (c : Dev nD) :
    (W17 m ρ c (Proc.devRef .tc main_v85) : Gcn.Mat 800000 64)
      = Gcn.eOut (KDefs.params m c) (KComp2.maps m c) (Gcn.varClamped Gcn.nNodes) (Gcn.varClamped Gcn.nEdges) :=
  KComp3.eOut m ρ c _ (KComp2.e1 m ρ c)

theorem maps_eq (c : Dev nD) :
    KComp2.maps m c
      = Gcn.mkMaps Facts₀.gather_S50000x64_S800000x1_S800000x64_1_0_n_n_0_1_164_wf
          Facts₀.scatter_S50000x64_S800000x1_S800000x64_1_0_0_1_wf Facts₀.bcast_S_S800000 Facts₀.bcast_S800000_S800000x1_0
          Facts₀.bcast_S_S50000x64 (m ((c : Thread nD τ).loc main_arg2)) (m ((c : Thread nD τ).loc main_arg3)) := rfl

end Cert.KernelIdeal.KFinal

end
-- ==== Proof.ColNorm.lean ====
import Idealize.ShloMosaic.Lib.IdealHost
import Idealize.ShloMosaic.Lib.ValueIdx
import Idealize.ShloMosaic.Lib.KernelVsHost
import Idealize.ShloMosaic.Lib.StackMember
import Idealize.ShloMosaic.PureOps.Ideal.Laws
import proofs.«123720_j33586644255160_2_alg».proof.Proof.Spec

noncomputable section

namespace Gcn

open Idealize.ShloMosaic Idealize.ShloMosaic.ValueIdx
open scoped BigOperators

/-- The shape facts of an R-row, C-column matrix, its column vector and a scalar. -/
structure Wit (R C : Nat) : Prop where
  red : (⟨2, ![R, C]⟩ : Shape).ReducesTo [0] ⟨1, ![C]⟩
  reds : (⟨2, ![R, C]⟩ : Shape).Reduces [0] ⟨1, ![C]⟩
  pos : 0 < (⟨0, ![]⟩ : Shape).numel
  s1 : (⟨0, ![]⟩ : Shape).BroadcastsInDim ⟨1, ![C]⟩ ![]
  s2 : (⟨0, ![]⟩ : Shape).BroadcastsInDim ⟨2, ![1, C]⟩ ![]
  v1 : (⟨1, ![C]⟩ : Shape).BroadcastsInDim ⟨2, ![1, C]⟩ ![1]
  v2 : (⟨2, ![1, C]⟩ : Shape).BroadcastsInDim ⟨2, ![R, C]⟩ ![0, 1]

variable {α : Type} {R C K : Nat}

-- A vector laid as the one row of a matrix reads its own entry at each column.
theorem oneRow_apply {h1 : (⟨1, ![C]⟩ : Shape).BroadcastsInDim ⟨2, ![1, C]⟩ ![1]} (v : (⟨1, ![C]⟩ : Shape).Idx → α)
    (j : Fin C) : broadcastInDim ⟨2, ![1, C]⟩ ![1] h1 v (ix2 (0 : Fin 1) j) = v (ix1 j) := by
  refine broadcastInDim_apply ![1] h1 v _ _ fun a => ?_
  match a with
  | ⟨0, _⟩ =>
    show j.val = if C = 1 then 0 else j.val
    have := j.isLt
    split <;> omega

-- A vector laid down the rows of a matrix reads its own entry at each column.
theorem rowDown_apply {h1 : (⟨1, ![C]⟩ : Shape).BroadcastsInDim ⟨2, ![1, C]⟩ ![1]}
    {h2 : (⟨2, ![1, C]⟩ : Shape).BroadcastsInDim ⟨2, ![R, C]⟩ ![0, 1]} (v : (⟨1, ![C]⟩ : Shape).Idx → α) (r : Fin R)
    (j : Fin C) :
    broadcastInDim ⟨2, ![R, C]⟩ ![0, 1] h2 (broadcastInDim ⟨2, ![1, C]⟩ ![1] h1 v) (ix2 r j) = v (ix1 j) := by
  rw [broadcastInDim_oneRow_apply, oneRow_apply]

-- The sum down the rows, started from the zero word, is the column sum.
theorem colSum_read {h : (⟨2, ![R, C]⟩ : Shape).ReducesTo [0] ⟨1, ![C]⟩} (hr : (⟨2, ![R, C]⟩ : Shape).Reduces [0] ⟨1, ![C]⟩)
    {hu : 0 < (⟨0, ![]⟩ : Shape).numel} (x : Mat R C) (j : Fin C) :
    Host.reduceAdd (F := Ideal) (φ := .f32) x (constant ⟨0, ![]⟩ .f32 0x00000000#32) h hu (ix1 j) = colSum x j := by
  rw [hostReduceAdd_apply, Ideal.hostReduceAdd_single h hr, constant_apply, Ideal.ofBits_zero_f32, zero_add]
  exact Finset.sum_congr rfl fun k _ => congrArg x (funext fun a => by match a with | ⟨0, _⟩ => rfl | ⟨1, _⟩ => rfl)

section Norm

variable (w : Wit R C) (n : BitVec 32) (x : Mat R C)

/-- The column means, as a vector. -/
abbrev hMean : FVec Ideal ⟨1, ![C]⟩ .f32 :=
  Host.divf (Host.reduceAdd (F := Ideal) (φ := .f32) x (constant ⟨0, ![]⟩ .f32 0x00000000#32) w.red w.pos)
    (broadcastInDim ⟨1, ![C]⟩ ![] w.s1 (constant ⟨0, ![]⟩ .f32 n))

/-- The deviations from the column means, the means kept as a one-row matrix. -/
abbrev hDev : FVec Ideal ⟨2, ![R, C]⟩ .f32 :=
  subf x (broadcastInDim ⟨2, ![R, C]⟩ ![0, 1] w.v2
    (Host.divf (broadcastInDim ⟨2, ![1, C]⟩ ![1] w.v1
        (Host.reduceAdd (F := Ideal) (φ := .f32) x (constant ⟨0, ![]⟩ .f32 0x00000000#32) w.red w.pos))
      (broadcastInDim ⟨2, ![1, C]⟩ ![] w.s2 (constant ⟨0, ![]⟩ .f32 n))))

/-- The row count less zero degrees of freedom. -/
abbrev hCount : FVec Ideal ⟨0, ![]⟩ .f32 :=
  subf (constant ⟨0, ![]⟩ .f32 n) (sitofp .f32 (constantI ⟨0, ![]⟩ 32 0#32))

/-- The column variances: the mean squared deviation where the count is positive. -/
abbrev hVar : FVec Ideal ⟨1, ![C]⟩ .f32 :=
  select (broadcastInDim ⟨1, ![C]⟩ ![] w.s1 (cmpf .ogt (hCount n) (constant ⟨0, ![]⟩ .f32 0x00000000#32)))
    (Host.divf (Host.reduceAdd (F := Ideal) (φ := .f32) (mulf (hDev w n x) (hDev w n x)) (constant ⟨0, ![]⟩ .f32 0x00000000#32)
        w.red w.pos) (broadcastInDim ⟨1, ![C]⟩ ![] w.s1 (hCount n)))
    (broadcastInDim ⟨1, ![C]⟩ ![] w.s1 (id (constant ⟨0, ![]⟩ .f32 0x7FC00000#32)))

theorem hMean_apply (j : Fin C) : hMean w n x (ix1 j) = mean (Ideal.ofBits .f32 n) x j := by
  unfold hMean
  rw [hostDivf_apply, colSum_read w.reds, broadcastInDim_scalar_apply, constant_apply]
  rfl

theorem hDev_apply (r : Fin R) (j : Fin C) : hDev w n x (ix2 r j) = x (ix2 r j) - mean (Ideal.ofBits .f32 n) x j := by
  unfold hDev
  rw [subf_apply, broadcastInDim_oneRow_apply, hostDivf_apply, oneRow_apply, colSum_read w.reds, broadcastInDim_scalar_apply,
    constant_apply]
  rfl

theorem hCount_apply (i : (⟨0, ![]⟩ : Shape).Idx) : hCount n i = Ideal.ofBits .f32 n := by
  show Ideal.ofBits .f32 n - (((0#32 : BitVec 32).toInt : ℝ) : EReal) = _
  simp

-- The guard on the count is passed, so the variance is the mean squared deviation.
theorem hVar_apply (hn : 0 < Ideal.ofBits .f32 n) (j : Fin C) : hVar w n x (ix1 j) = varCentered (Ideal.ofBits .f32 n) x j := by
  have hc : Ideal.cmp .ogt (Ideal.ofBits .f32 n) 0 = 1#1 := by
    unfold Ideal.cmp
    rw [decide_eq_true hn]; rfl
  unfold hVar
  rw [select_apply, broadcastInDim_scalar_apply, cmpf_apply, hCount_apply, constant_apply, Ideal.ofBits_zero_f32,
    Ideal.cmpf_def, hc, select_one, hostDivf_apply, colSum_read w.reds, broadcastInDim_scalar_apply, hCount_apply]
  refine congrArg (Ideal.div · _) (Finset.sum_congr rfl fun r _ => ?_)
  rw [mulf_apply, hDev_apply]

-- The normalisation of the rows by their column means and variances, scaled and shifted.
theorem bn_read (hn : 0 < Ideal.ofBits .f32 n) (g b : FVec Ideal ⟨1, ![C]⟩ .f32) :
    addf (mulf (mulf (broadcastInDim ⟨2, ![R, C]⟩ ![0, 1] w.v2 (broadcastInDim ⟨2, ![1, C]⟩ ![1] w.v1 g))
        (subf x (broadcastInDim ⟨2, ![R, C]⟩ ![0, 1] w.v2 (broadcastInDim ⟨2, ![1, C]⟩ ![1] w.v1 (hMean w n x)))))
        (broadcastInDim ⟨2, ![R, C]⟩ ![0, 1] w.v2 (broadcastInDim ⟨2, ![1, C]⟩ ![1] w.v1
          (Host.rsqrt (addf (hVar w n x) (broadcastInDim ⟨1, ![C]⟩ ![] w.s1 (constant ⟨0, ![]⟩ .f32 0x3727C5AC#32)))))))
      (broadcastInDim ⟨2, ![R, C]⟩ ![0, 1] w.v2 (broadcastInDim ⟨2, ![1, C]⟩ ![1] w.v1 b))
      = bn epsBN (vec g) (vec b) (mean (Ideal.ofBits .f32 n) x) (varCentered (Ideal.ofBits .f32 n) x) x := by
  funext i
  obtain ⟨r, j, rfl⟩ : ∃ (r : Fin R) (j : Fin C), i = ix2 r j := ⟨i 0, i 1, eq_ix2 i⟩
  rw [bn_apply, addf_apply, mulf_apply, mulf_apply, subf_apply, rowDown_apply, rowDown_apply, rowDown_apply, rowDown_apply,
    hMean_apply]
  show _ * _ * Ideal.rsqrt (hVar w n x (ix1 j) + _) + _ = _
  rw [hVar_apply w n x hn, broadcastInDim_scalar_apply, constant_apply]
  rfl

end Norm

-- A product with a weight matrix plus a bias laid down the rows is the linear map.
theorem lin_read {d : DotDims ⟨2, ![R, K]⟩ ⟨2, ![K, C]⟩ ⟨2, ![R, C]⟩} (hd : d = DotDims.plain R K C)
    {h1 : (⟨1, ![C]⟩ : Shape).BroadcastsInDim ⟨2, ![1, C]⟩ ![1]} {h2 : (⟨2, ![1, C]⟩ : Shape).BroadcastsInDim ⟨2, ![R, C]⟩ ![0, 1]}
    (X : Mat R K) (Wt : Mat K C) (bias : FVec Ideal ⟨1, ![C]⟩ .f32) :
    addf (F := Ideal) (φ := .f32) (Host.dotGeneral (φ₁ := .f32) (φ₂ := .f32) d none X Wt)
        (broadcastInDim ⟨2, ![R, C]⟩ ![0, 1] h2 (broadcastInDim ⟨2, ![1, C]⟩ ![1] h1 bias)) = lin X Wt (vec bias) := by
  subst hd
  funext i
  obtain ⟨r, j, rfl⟩ : ∃ (r : Fin R) (j : Fin C), i = ix2 r j := ⟨i 0, i 1, eq_ix2 i⟩
  rw [addf_apply, StackMember.dotGeneral_plain_apply, rowDown_apply]
  rfl

-- The maximum with the zero word laid everywhere is the positive part.
theorem relu_read {h : (⟨0, ![]⟩ : Shape).BroadcastsInDim ⟨2, ![R, C]⟩ ![]} (X : Mat R C) :
    maximumf (F := Ideal) (φ := .f32) X (broadcastInDim ⟨2, ![R, C]⟩ ![] h (constant ⟨0, ![]⟩ .f32 0x00000000#32)) = relu X := by
  funext i
  rw [maximumf_apply, broadcastInDim_scalar_apply, constant_apply, Ideal.ofBits_zero_f32]
  rfl

end Gcn

end
-- ==== Proof.AlgVar.lean ====
import proofs.«123720_j33586644255160_2_alg».proof.Proof.Spec
import proofs.«123720_j33586644255160_2_alg».proof.Proof.RealEntries
import Mathlib.Tactic.FieldSimp
import Mathlib.Tactic.Ring
import Mathlib.Tactic.Positivity
import Mathlib.Tactic.NormNum

noncomputable section

namespace Gcn

open Idealize.ShloMosaic Idealize.ShloMosaic.ValueIdx

theorem nNodes_eq : nNodes = ((50000 : ℝ) : EReal) := by
  simp [nNodes, Ideal.ofBits, Ideal.ieee, -EReal.coe_mul]; norm_num

theorem nEdges_eq : nEdges = ((800000 : ℝ) : EReal) := by
  simp [nEdges, Ideal.ofBits, Ideal.ieee, -EReal.coe_mul]; norm_num

theorem epsBN_pos : Pos epsBN :=
  ⟨10995116 * (2 : ℝ) ^ (-40 : Int), by positivity, by simp [epsBN, Ideal.ofBits, Ideal.ieee, -EReal.coe_mul]⟩

theorem epsGate_pos : Pos epsGate :=
  ⟨14411519 * (2 : ℝ) ^ (-57 : Int), by positivity, by simp [epsGate, Ideal.ofBits, Ideal.ieee, -EReal.coe_mul]⟩

theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

section Reals
variable {n : Nat} (f : Fin n → ℝ) (m : ℝ)

theorem sq_dev_nonneg : 0 ≤ (∑ r : Fin n, (f r - m) * (f r - m)) * (1 / (n : ℝ)) :=
  mul_nonneg (Finset.sum_nonneg fun r _ => mul_self_nonneg _) (by positivity)

/-- Expand the square and use that the sum of the `f r` is `n · m`. -/
theorem sum_sq_dev (hn : (n : ℝ) ≠ 0) (hm : m = (∑ r : Fin n, f r) * (1 / (n : ℝ))) :
    (∑ r : Fin n, (f r - m) * (f r - m)) * (1 / (n : ℝ)) = (∑ r : Fin n, f r * f r) * (1 / (n : ℝ)) - m * m := by
  have h2 : (∑ r : Fin n, f r) = n * m := by rw [hm]; field_simp
  simp only [sub_mul, mul_sub, Finset.sum_sub_distrib, ← Finset.mul_sum, ← Finset.sum_mul, Finset.sum_const,
    Finset.card_univ, Fintype.card_fin, nsmul_eq_mul, h2]
  field_simp; ring

end Reals

section
variable {R C : Nat} {n : EReal} (hn : n = ((R : ℝ) : EReal)) (hR : 0 < R) {X : Mat R C} (hX : MatFinite X)
include hn hR hX

theorem mean_finite : RowFinite (mean n X) :=
  fun _ => re_div (re_sum _ fun _ _ => hX _) ⟨R, Nat.cast_pos.2 hR, hn⟩

/-- On real columns the mean of squares minus the squared mean is the mean of squared deviations, which is not negative. -/
theorem var_eq : varClamped n X = varCentered n X := by
  subst hn
  have hn : (R : ℝ) ≠ 0 := Nat.cast_ne_zero.2 hR.ne'
  obtain ⟨x, hx⟩ : ∃ x : (⟨2, ![R, C]⟩ : Shape).Idx → ℝ, ∀ i, X i = (x i : EReal) :=
    ⟨fun i => (X i).toReal, fun i => (EReal.coe_toReal (hX i).1 (hX i).2).symm⟩
  funext j
  simp only [varClamped, varCentered, mean, colSum, colSumSq, Ideal.div_coe hn, hx, ← coe_sum, ← EReal.coe_mul,
    ← EReal.coe_sub]
  rw [← sum_sq_dev (fun r => x (ix2 r j)) _ hn rfl]
  exact max_eq_left (EReal.coe_nonneg.2 (sq_dev_nonneg _ _))

/-- The centred variance is real by closure and equals a maximum with zero. -/
theorem var_nonneg (j : Fin C) : Re (varCentered n X j) ∧ 0 ≤ varCentered n X j := by
  have hm := mean_finite hn hR hX j
  exact ⟨re_div (re_sum _ fun _ _ => re_mul (re_sub (hX _) hm) (re_sub (hX _) hm)) ⟨R, Nat.cast_pos.2 hR, hn⟩,
    congrFun (var_eq hn hR hX) j ▸ le_max_right _ _⟩

end

end Gcn

end
-- ==== Proof.RefS1.lean ====
import proofs.«123720_j33586644255160_2_alg».proof.Proof.Gen.ReferenceIdeal
import Idealize.ShloMosaic.Lib.StableHlo.Run
import proofs.«123720_j33586644255160_2_alg».proof.Proof.ColNorm
import proofs.«123720_j33586644255160_2_alg».proof.Proof.AlgVar

set_option Elab.async false

noncomputable section

namespace Cert.ReferenceIdeal.RefS1

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [
    nullary main_cst (constant S_ .f32 0x00000000#32),
    binary main_arg0 main_cst main_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_0 (constant S_ .f32 0x47435000#32),
    unary main_cst_0 main_v1 (broadcastInDim S64 ![] bcast_S_S64),
    binary main_v0 main_v1 main_v2 Host.divf,
    nullary main_c (constantI S_ 32 0#32),
    TRef.nullary main_call0.cst (constant S_ .f32 0x00000000#32),
    TRef.binary (TRef.of (T := ⟨S50000x64, .f32⟩) main_arg0) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (TRef.of (T := ⟨S50000x64, .f32⟩) main_arg0) main_call0.v4 main_call0.v5 subf,
    TRef.binary main_call0.v5 main_call0.v5 main_call0.v6 mulf,
    TRef.unary (TRef.of (T := ⟨S_, .i32⟩) main_c) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v2 main_v4 (broadcastInDim S1x64 ![1] bcast_S64_S1x64_1),
    unary main_v4 main_v5 (broadcastInDim S50000x64 ![0, 1] bcast_S1x64_S50000x64_0_1),
    binary main_arg0 main_v5 main_v6 subf,
    unary main_arg14 main_v7 (broadcastInDim S1x64 ![1] bcast_S64_S1x64_1),
    unary main_v7 main_v8 (broadcastInDim S50000x64 ![0, 1] bcast_S1x64_S50000x64_0_1),
    binary main_v8 main_v6 main_v9 mulf,
    nullary main_cst_1 (constant S_ .f32 0x3727C5AC#32),
    unary main_cst_1 main_v10 (broadcastInDim S64 ![] bcast_S_S64),
    binary main_v3 main_v10 main_v11 addf,
    unary main_v11 main_v12 Host.rsqrt,
    unary main_v12 main_v13 (broadcastInDim S1x64 ![1] bcast_S64_S1x64_1),
    unary main_v13 main_v14 (broadcastInDim S50000x64 ![0, 1] bcast_S1x64_S50000x64_0_1),
    binary main_v9 main_v14 main_v15 mulf,
    unary main_arg18 main_v16 (broadcastInDim S1x64 ![1] bcast_S64_S1x64_1),
    unary main_v16 main_v17 (broadcastInDim S50000x64 ![0, 1] bcast_S1x64_S50000x64_0_1),
    binary main_v15 main_v17 main_v18 addf,
    nullary main_cst_2 (constant S_ .f32 0x00000000#32),
    binary main_arg1 main_cst_2 main_v19 ((fun x v => Host.reduceAdd x v reducesTo_S800000x64_S64_d0 h_S_) : (⟨S800000x64, .f32⟩ : BufTy).Contents (Elt F) → (⟨S_, .f32⟩ : BufTy).Contents (Elt F) → (⟨S64, .f32⟩ : BufTy).Contents (Elt F)),
    nullary main_cst_3 (constant S_ .f32 0x49435000#32),
    unary main_cst_3 main_v20 (broadcastInDim S64 ![] bcast_S_S64),
    binary main_v19 main_v20 main_v21 Host.divf,
    nullary main_c_4 (constantI S_ 32 0#32),
    TRef.nullary main_call1.cst (constant S_ .f32 0x00000000#32),
    TRef.binary (TRef.of (T := ⟨S800000x64, .f32⟩) main_arg1) main_call1.cst main_call1.v0 (fun x v => Host.reduceAdd x v reducesTo_S800000x64_S64_d0 h_S_),
    TRef.unary main_call1.v0 main_call1.v1 (broadcastInDim S1x64 ![1] bcast_S64_S1x64_1),
    TRef.nullary main_call1.cst_0 (constant S_ .f32 0x49435000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S800000x64 ![0, 1] bcast_S1x64_S800000x64_0_1),
    TRef.binary (TRef.of (T := ⟨S800000x64, .f32⟩) main_arg1) main_call1.v4 main_call1.v5 subf,
    TRef.binary main_call1.v5 main_call1.v5 main_call1.v6 mulf,
    TRef.unary (TRef.of (T := ⟨S_, .i32⟩) main_c_4) main_call1.v7 (sitofp .f32),
    TRef.nullary main_call1.cst_1 (constant S_ .f32 0x49435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S800000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v21 main_v23 (broadcastInDim S1x64 ![1] bcast_S64_S1x64_1),
    unary main_v23 main_v24 (broadcastInDim S800000x64 ![0, 1] bcast_S1x64_S800000x64_0_1),
    binary main_arg1 main_v24 main_v25 subf,
    unary main_arg15 main_v26 (broadcastInDim S1x64 ![1] bcast_S64_S1x64_1),
    unary main_v26 main_v27 (broadcastInDim S800000x64 ![0, 1] bcast_S1x64_S800000x64_0_1),
    binary main_v27 main_v25 main_v28 mulf,
    nullary main_cst_5 (constant S_ .f32 0x3727C5AC#32),
    unary main_cst_5 main_v29 (broadcastInDim S64 ![] bcast_S_S64),
    binary main_v22 main_v29 main_v30 addf,
    unary main_v30 main_v31 Host.rsqrt,
    unary main_v31 main_v32 (broadcastInDim S1x64 ![1] bcast_S64_S1x64_1),
    unary main_v32 main_v33 (broadcastInDim S800000x64 ![0, 1] bcast_S1x64_S800000x64_0_1),
    binary main_v28 main_v33 main_v34 mulf,
    unary main_arg19 main_v35 (broadcastInDim S1x64 ![1] bcast_S64_S1x64_1),
    unary main_v35 main_v36 (broadcastInDim S800000x64 ![0, 1] bcast_S1x64_S800000x64_0_1),
    binary main_v34 main_v36 main_v37 addf,
    binary main_v18 main_arg4 main_v38 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v39 (broadcastInDim S1x64 ![1] bcast_S64_S1x64_1),
    unary main_v39 main_v40 (broadcastInDim S50000x64 ![0, 1] bcast_S1x64_S50000x64_0_1),
    binary main_v38 main_v40 main_v41 addf,
    binary main_v18 main_arg5 main_v42 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg10 main_v43 (broadcastInDim S1x64 ![1] bcast_S64_S1x64_1),
    unary main_v43 main_v44 (broadcastInDim S50000x64 ![0, 1] bcast_S1x64_S50000x64_0_1),
    binary main_v42 main_v44 main_v45 addf,
    binary main_v18 main_arg6 main_v46 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg11 main_v47 (broadcastInDim S1x64 ![1] bcast_S64_S1x64_1),
    unary main_v47 main_v48 (broadcastInDim S50000x64 ![0, 1] bcast_S1x64_S50000x64_0_1),
    binary main_v46 main_v48 main_v49 addf,
    binary main_v18 main_arg7 main_v50 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v51 (broadcastInDim S1x64 ![1] bcast_S64_S1x64_1),
    unary main_v51 main_v52 (broadcastInDim S50000x64 ![0, 1] bcast_S1x64_S50000x64_0_1),
    binary main_v50 main_v52 main_v53 addf,
    binary main_v37 main_arg8 main_v54 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg13 main_v55 (broadcastInDim S1x64 ![1] bcast_S64_S1x64_1),
    unary main_v55 main_v56 (broadcastInDim S800000x64 ![0, 1] bcast_S1x64_S800000x64_0_1),
    binary main_v54 main_v56 main_v57 addf ]

theorem ops_sub : (ops : List (HloOp τ sig (Elt F))).Forall fun op => op.bufs ⊆ tcRefs τ sig := by
  simp only [List.Forall, nullary_bufs_sub, unary_bufs_sub, binary_bufs_sub, ternary_bufs_sub, and_self]

def written : List (Ref sig .tc) :=
  [
    main_cst, main_v0, main_cst_0, main_v1, main_v2, main_c, main_call0_cst, main_call0_v0,
    main_call0_v1, main_call0_cst_0, main_call0_v2, main_call0_v3, main_call0_v4, main_call0_v5, main_call0_v6, main_call0_v7,
    main_call0_cst_1, main_call0_v8, main_call0_cst_2, main_call0_v9, main_call0_v10, main_call0_v11, main_call0_cst_3, main_call0_v12,
    main_call0_cst_4, main_call0_call0_v0, main_call0_call0_v1, main_v3, main_v4, main_v5, main_v6, main_v7,
    main_v8, main_v9, main_cst_1, main_v10, main_v11, main_v12, main_v13, main_v14,
    main_v15, main_v16, main_v17, main_v18, main_cst_2, main_v19, main_cst_3, main_v20,
    main_v21, main_c_4, main_call1_cst, main_call1_v0, main_call1_v1, main_call1_cst_0, main_call1_v2, main_call1_v3,
    main_call1_v4, main_call1_v5, main_call1_v6, main_call1_v7, main_call1_cst_1, main_call1_v8, main_call1_cst_2, main_call1_v9,
    main_call1_v10, main_call1_v11, main_call1_cst_3, main_call1_v12, main_call1_cst_4, main_call1_call0_v0, main_call1_call0_v1, main_v22,
    main_v23, main_v24, main_v25, main_v26, main_v27, main_v28, main_cst_5, main_v29,
    main_v30, main_v31, main_v32, main_v33, main_v34, main_v35, main_v36, main_v37,
    main_v38, main_v39, main_v40, main_v41, main_v42, main_v43, main_v44, main_v45,
    main_v46, main_v47, main_v48, main_v49, main_v50, main_v51, main_v52, main_v53,
    main_v54, main_v55, main_v56, main_v57 ]

theorem keep (W : Valuation τ sig (Elt F)) (b : Ref sig .tc) (hb : b ∉ written) :
    StableHlo.after ops W (Proc.devRef .tc b) = W (Proc.devRef .tc b) :=
  after_of_writes_sub ops W (by
    simp only [List.Forall, nullary_writes, unary_writes, binary_writes, ternary_writes, Finset.singleton_subset_iff,
      List.mem_toFinset]
    repeat' apply And.intro
    all_goals exact List.mem_map_of_mem (by decide)) hb

theorem witN : Gcn.Wit 50000 64 :=
  ⟨reducesTo_S50000x64_S64_d0, by decide, h_S_, bcast_S_S64, bcast_S_S1x64, bcast_S64_S1x64_1, bcast_S1x64_S50000x64_0_1⟩

theorem witE : Gcn.Wit 800000 64 :=
  ⟨reducesTo_S800000x64_S64_d0, by decide, h_S_, bcast_S_S64, bcast_S_S1x64, bcast_S64_S1x64_1, bcast_S1x64_S800000x64_0_1⟩

theorem nNodes_pos : (0 : EReal) < Ideal.ofBits .f32 0x47435000#32 :=
  lt_of_lt_of_eq (EReal.coe_pos.mpr (by norm_num)) Gcn.nNodes_eq.symm

theorem nEdges_pos : (0 : EReal) < Ideal.ofBits .f32 0x49435000#32 :=
  lt_of_lt_of_eq (EReal.coe_pos.mpr (by norm_num)) Gcn.nEdges_eq.symm

section Results

variable (W : Valuation τ sig (Elt Ideal))

def hn : Gcn.Mat 50000 64 :=
  Gcn.bn Gcn.epsBN (Gcn.vec (W (Proc.devRef .tc main_arg14))) (Gcn.vec (W (Proc.devRef .tc main_arg18)))
    (Gcn.mean Gcn.nNodes (W (Proc.devRef .tc main_arg0))) (Gcn.varCentered Gcn.nNodes (W (Proc.devRef .tc main_arg0))) (W (Proc.devRef .tc main_arg0))

def en : Gcn.Mat 800000 64 :=
  Gcn.bn Gcn.epsBN (Gcn.vec (W (Proc.devRef .tc main_arg15))) (Gcn.vec (W (Proc.devRef .tc main_arg19)))
    (Gcn.mean Gcn.nEdges (W (Proc.devRef .tc main_arg1))) (Gcn.varCentered Gcn.nEdges (W (Proc.devRef .tc main_arg1))) (W (Proc.devRef .tc main_arg1))

set_option maxHeartbeats 4000000 in
-- each projection buffer holds the product of the normalised rows with its matrix, plus its bias row
theorem reads :
    (StableHlo.after ops W (Proc.devRef .tc main_v41) : Gcn.Mat 50000 64) = Gcn.lin (hn W) (W (Proc.devRef .tc main_arg4)) (Gcn.vec (W (Proc.devRef .tc main_arg9)))
    ∧ (StableHlo.after ops W (Proc.devRef .tc main_v45) : Gcn.Mat 50000 64) = Gcn.lin (hn W) (W (Proc.devRef .tc main_arg5)) (Gcn.vec (W (Proc.devRef .tc main_arg10)))
    ∧ (StableHlo.after ops W (Proc.devRef .tc main_v49) : Gcn.Mat 50000 64) = Gcn.lin (hn W) (W (Proc.devRef .tc main_arg6)) (Gcn.vec (W (Proc.devRef .tc main_arg11)))
    ∧ (StableHlo.after ops W (Proc.devRef .tc main_v53) : Gcn.Mat 50000 64) = Gcn.lin (hn W) (W (Proc.devRef .tc main_arg7)) (Gcn.vec (W (Proc.devRef .tc main_arg12)))
    ∧ (StableHlo.after ops W (Proc.devRef .tc main_v57) : Gcn.Mat 800000 64) = Gcn.lin (en W) (W (Proc.devRef .tc main_arg8)) (Gcn.vec (W (Proc.devRef .tc main_arg13))) := by
  simp (disch := decide) only [after_cons, after_nil, nullary_result', unary_result', binary_result', ternary_result',
    nullary_result_ne', unary_result_ne', binary_result_ne', ternary_result_ne', TRef.toBuf, TRef.ofBuf, cast_eq]
  rw [Gcn.bn_read witN _ _ nNodes_pos, Gcn.bn_read witE _ _ nEdges_pos]
  exact ⟨Gcn.lin_read rfl .., Gcn.lin_read rfl .., Gcn.lin_read rfl .., Gcn.lin_read rfl .., Gcn.lin_read rfl ..⟩

end Results

theorem v41 (W : Valuation τ sig (Elt Ideal)) :
    (StableHlo.after ops W (Proc.devRef .tc main_v41) : Gcn.Mat 50000 64)
      = Gcn.lin
          (Gcn.bn Gcn.epsBN (Gcn.vec (W (Proc.devRef .tc main_arg14))) (Gcn.vec (W (Proc.devRef .tc main_arg18)))
            (Gcn.mean Gcn.nNodes (W (Proc.devRef .tc main_arg0) : Gcn.Mat 50000 64))
            (Gcn.varCentered Gcn.nNodes (W (Proc.devRef .tc main_arg0) : Gcn.Mat 50000 64))
            (W (Proc.devRef .tc main_arg0) : Gcn.Mat 50000 64))
          (W (Proc.devRef .tc main_arg4)) (Gcn.vec (W (Proc.devRef .tc main_arg9))) :=
  (reads W).1

theorem v45 (W : Valuation τ sig (Elt Ideal)) :
    (StableHlo.after ops W (Proc.devRef .tc main_v45) : Gcn.Mat 50000 64)
      = Gcn.lin
          (Gcn.bn Gcn.epsBN (Gcn.vec (W (Proc.devRef .tc main_arg14))) (Gcn.vec (W (Proc.devRef .tc main_arg18)))
            (Gcn.mean Gcn.nNodes (W (Proc.devRef .tc main_arg0) : Gcn.Mat 50000 64))
            (Gcn.varCentered Gcn.nNodes (W (Proc.devRef .tc main_arg0) : Gcn.Mat 50000 64))
            (W (Proc.devRef .tc main_arg0) : Gcn.Mat 50000 64))
          (W (Proc.devRef .tc main_arg5)) (Gcn.vec (W (Proc.devRef .tc main_arg10))) :=
  (reads W).2.1

theorem v49 (W : Valuation τ sig (Elt Ideal)) :
    (StableHlo.after ops W (Proc.devRef .tc main_v49) : Gcn.Mat 50000 64)
      = Gcn.lin
          (Gcn.bn Gcn.epsBN (Gcn.vec (W (Proc.devRef .tc main_arg14))) (Gcn.vec (W (Proc.devRef .tc main_arg18)))
            (Gcn.mean Gcn.nNodes (W (Proc.devRef .tc main_arg0) : Gcn.Mat 50000 64))
            (Gcn.varCentered Gcn.nNodes (W (Proc.devRef .tc main_arg0) : Gcn.Mat 50000 64))
            (W (Proc.devRef .tc main_arg0) : Gcn.Mat 50000 64))
          (W (Proc.devRef .tc main_arg6)) (Gcn.vec (W (Proc.devRef .tc main_arg11))) :=
  (reads W).2.2.1

theorem v53 (W : Valuation τ sig (Elt Ideal)) :
    (StableHlo.after ops W (Proc.devRef .tc main_v53) : Gcn.Mat 50000 64)
      = Gcn.lin
          (Gcn.bn Gcn.epsBN (Gcn.vec (W (Proc.devRef .tc main_arg14))) (Gcn.vec (W (Proc.devRef .tc main_arg18)))
            (Gcn.mean Gcn.nNodes (W (Proc.devRef .tc main_arg0) : Gcn.Mat 50000 64))
            (Gcn.varCentered Gcn.nNodes (W (Proc.devRef .tc main_arg0) : Gcn.Mat 50000 64))
            (W (Proc.devRef .tc main_arg0) : Gcn.Mat 50000 64))
          (W (Proc.devRef .tc main_arg7)) (Gcn.vec (W (Proc.devRef .tc main_arg12))) :=
  (reads W).2.2.2.1

theorem v57 (W : Valuation τ sig (Elt Ideal)) :
    (StableHlo.after ops W (Proc.devRef .tc main_v57) : Gcn.Mat 800000 64)
      = Gcn.lin
          (Gcn.bn Gcn.epsBN (Gcn.vec (W (Proc.devRef .tc main_arg15))) (Gcn.vec (W (Proc.devRef .tc main_arg19)))
            (Gcn.mean Gcn.nEdges (W (Proc.devRef .tc main_arg1) : Gcn.Mat 800000 64))
            (Gcn.varCentered Gcn.nEdges (W (Proc.devRef .tc main_arg1) : Gcn.Mat 800000 64))
            (W (Proc.devRef .tc main_arg1) : Gcn.Mat 800000 64))
          (W (Proc.devRef .tc main_arg8)) (Gcn.vec (W (Proc.devRef .tc main_arg13))) :=
  (reads W).2.2.2.2

end Cert.ReferenceIdeal.RefS1

end
-- ==== Proof.RefS2.lean ====
import proofs.«123720_j33586644255160_2_alg».proof.Proof.Gen.ReferenceIdeal
import Idealize.ShloMosaic.Lib.StableHlo.Run
import Idealize.ShloMosaic.Lib.IdealHost
import Idealize.ShloMosaic.Lib.ValueIdx
import proofs.«123720_j33586644255160_2_alg».proof.Proof.Spec

set_option maxRecDepth 16384

noncomputable section

namespace Cert.ReferenceIdeal.RefS2

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

abbrev ops : List (HloOp τ sig (Elt F)) :=
  [ nullary main_c_6 (constantI S_ 32 0#32),
    unary main_c_6 main_v58 (broadcastInDim S800000 ![] bcast_S_S800000),
    binary main_arg2 main_v58 main_v59 (cmpi .slt),
    nullary main_c_7 (constantI S_ 32 50000#32),
    unary main_c_7 main_v60 (broadcastInDim S800000 ![] bcast_S_S800000),
    binary main_arg2 main_v60 main_v61 addi,
    ternary main_v59 main_v61 main_arg2 main_v62 select,
    unary main_v62 main_v63 (broadcastInDim S800000x1 ![0] bcast_S800000_S800000x1_0),
    binary main_v49 main_v63 main_v64 (fun x i => Host.gather gather_S50000x64_S800000x1_S800000x64_1_0_n_n_0_1_164 x i),
    nullary main_c_8 (constantI S_ 32 0#32),
    unary main_c_8 main_v65 (broadcastInDim S800000 ![] bcast_S_S800000),
    binary main_arg3 main_v65 main_v66 (cmpi .slt),
    nullary main_c_9 (constantI S_ 32 50000#32),
    unary main_c_9 main_v67 (broadcastInDim S800000 ![] bcast_S_S800000),
    binary main_arg3 main_v67 main_v68 addi,
    ternary main_v66 main_v68 main_arg3 main_v69 select,
    unary main_v69 main_v70 (broadcastInDim S800000x1 ![0] bcast_S800000_S800000x1_0),
    binary main_v53 main_v70 main_v71 (fun x i => Host.gather gather_S50000x64_S800000x1_S800000x64_1_0_n_n_0_1_164 x i),
    binary main_v64 main_v71 main_v72 addf,
    binary main_v72 main_v57 main_v73 addf,
    unary main_v73 main_v74 Host.negf,
    unary main_v74 main_v75 Host.exp,
    nullary main_cst_10 (constant S_ .f32 0x3F800000#32),
    unary main_cst_10 main_v76 (broadcastInDim S800000x64 ![] bcast_S_S800000x64),
    binary main_v76 main_v75 main_v77 addf,
    nullary main_cst_11 (constant S_ .f32 0x3F800000#32),
    unary main_cst_11 main_v78 (broadcastInDim S800000x64 ![] bcast_S_S800000x64),
    binary main_v78 main_v77 main_v79 Host.divf,
    nullary main_c_12 (constantI S_ 32 0#32),
    unary main_c_12 main_v80 (broadcastInDim S800000 ![] bcast_S_S800000),
    binary main_arg2 main_v80 main_v81 (cmpi .slt),
    nullary main_c_13 (constantI S_ 32 50000#32),
    unary main_c_13 main_v82 (broadcastInDim S800000 ![] bcast_S_S800000),
    binary main_arg2 main_v82 main_v83 addi,
    ternary main_v81 main_v83 main_arg2 main_v84 select,
    unary main_v84 main_v85 (broadcastInDim S800000x1 ![0] bcast_S800000_S800000x1_0),
    binary main_v45 main_v85 main_v86 (fun x i => Host.gather gather_S50000x64_S800000x1_S800000x64_1_0_n_n_0_1_164 x i),
    binary main_v86 main_v79 main_v87 mulf,
    nullary main_cst_14 (constant S_ .f32 0x00000000#32),
    unary main_cst_14 main_v88 (broadcastInDim S50000x64 ![] bcast_S_S50000x64),
    unary main_arg3 main_v89 (broadcastInDim S800000x1 ![0] bcast_S800000_S800000x1_0),
    ternary main_v88 main_v89 main_v87 main_v90 (fun x i u => Host.scatterAdd scatter_S50000x64_S800000x1_S800000x64_1_0_0_1 x i u),
    nullary main_cst_15 (constant S_ .f32 0x00000000#32),
    unary main_cst_15 main_v91 (broadcastInDim S50000x64 ![] bcast_S_S50000x64),
    unary main_arg3 main_v92 (broadcastInDim S800000x1 ![0] bcast_S800000_S800000x1_0),
    ternary main_v91 main_v92 main_v79 main_v93 (fun x i u => Host.scatterAdd scatter_S50000x64_S800000x1_S800000x64_1_0_0_1 x i u),
    nullary main_cst_16 (constant S_ .f32 0x2EDBE6FF#32),
    unary main_cst_16 main_v94 (broadcastInDim S50000x64 ![] bcast_S_S50000x64),
    binary main_v93 main_v94 main_v95 addf,
    binary main_v90 main_v95 main_v96 Host.divf,
    binary main_v41 main_v96 main_v97 addf,
    binary main_arg0 main_v97 main_v98 addf,
    binary main_arg1 main_v73 main_v99 addf ]

theorem ops_sub : (ops : List (HloOp τ sig (Elt F))).Forall fun op => op.bufs ⊆ tcRefs τ sig := by
  repeat' apply And.intro
  all_goals simp only [List.Forall, nullary_bufs_sub, unary_bufs_sub, binary_bufs_sub, ternary_bufs_sub]

def written : List (Ref sig .tc) :=
  [main_c_6, main_v58, main_v59, main_c_7, main_v60, main_v61, main_v62, main_v63, main_v64, main_c_8, main_v65, main_v66, main_c_9, main_v67, main_v68, main_v69, main_v70, main_v71, main_v72, main_v73, main_v74, main_v75, main_cst_10, main_v76, main_v77, main_cst_11, main_v78, main_v79, main_c_12, main_v80, main_v81, main_c_13, main_v82, main_v83, main_v84, main_v85, main_v86, main_v87, main_cst_14, main_v88, main_v89, main_v90, main_cst_15, main_v91, main_v92, main_v93, main_cst_16, main_v94, main_v95, main_v96, main_v97, main_v98, main_v99]

-- Every operation writes a listed buffer, so a buffer off the list keeps its contents.
theorem keep (W : Valuation τ sig (Elt F)) (b : Ref sig .tc) (hb : b ∉ written) :
    StableHlo.after ops W (Proc.devRef .tc b) = W (Proc.devRef .tc b) := by
  refine after_of_writes_sub ops W ?_ hb
  simp only [List.Forall, nullary_writes, unary_writes, binary_writes, ternary_writes, Finset.singleton_subset_iff,
    List.mem_toFinset]
  repeat' apply And.intro
  all_goals exact List.mem_map_of_mem (by decide)

def wrapCol (x : (⟨S800000, .i32⟩ : BufTy).Contents (Elt Ideal)) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

def maps (W : Valuation τ sig (Elt Ideal)) : Gcn.Maps where
  gS X := Host.gather gather_S50000x64_S800000x1_S800000x64_1_0_n_n_0_1_164 X (wrapCol (W (Proc.devRef .tc main_arg2)))
  gD X := Host.gather gather_S50000x64_S800000x1_S800000x64_1_0_n_n_0_1_164 X (wrapCol (W (Proc.devRef .tc main_arg3)))
  sc U := Host.scatterAdd (F := Ideal) (φ := .f32) scatter_S50000x64_S800000x1_S800000x64_1_0_0_1
    (broadcastInDim S50000x64 ![] bcast_S_S50000x64 (constant S_ .f32 0x00000000#32))
    (broadcastInDim S800000x1 ![0] bcast_S800000_S800000x1_0 (W (Proc.devRef .tc main_arg3))) U

theorem sig_eq (E : FVec Ideal S800000x64 .f32) :
    (Host.divf (broadcastInDim S800000x64 ![] bcast_S_S800000x64 (constant S_ .f32 0x3F800000#32))
      (addf (broadcastInDim S800000x64 ![] bcast_S_S800000x64 (constant S_ .f32 0x3F800000#32)) (Host.exp (Host.negf E)))
        : FVec Ideal S800000x64 .f32) = Gcn.sigmoid E := by
  funext i
  simp only [Gcn.sigmoid, Ideal.logistic, hostDivf_apply, addf, Host.exp, Host.negf, Ideal.addf_def,
    Ideal.hostUnary_exp_def, Ideal.hostNegf_def, Ideal.negf_def]
  rw [broadcastInDim_scalar_apply]
  simp only [constant, Ideal.ofBits_def, Ideal.ofBits_one_f32]

theorem msg_eq (G S : FVec Ideal S800000x64 .f32) : (mulf G S : FVec Ideal S800000x64 .f32) = Gcn.had S G := by
  funext j
  simp only [mulf, Gcn.had, Ideal.mulf_def]
  exact mul_comm _ _

theorem gate_eq (H A N Dn : FVec Ideal S50000x64 .f32) :
    (addf H (addf A (Host.divf N (addf Dn (broadcastInDim S50000x64 ![] bcast_S_S50000x64 (constant S_ .f32 0x2EDBE6FF#32)))))
        : FVec Ideal S50000x64 .f32) = Gcn.gate Gcn.epsGate A N Dn H := by
  funext i
  simp only [Gcn.gate, Gcn.epsGate, addf, hostDivf_apply, Ideal.addf_def]
  rw [broadcastInDim_scalar_apply]
  simp only [constant, Ideal.ofBits_def]

theorem v99 (W : Valuation τ sig (Elt Ideal)) :
    (StableHlo.after ops W (Proc.devRef .tc main_v99) : Gcn.Mat 800000 64)
      = Gcn.resid (W (Proc.devRef .tc main_arg1))
          (Gcn.add3 ((maps W).gS (W (Proc.devRef .tc main_v49))) ((maps W).gD (W (Proc.devRef .tc main_v53)))
            (W (Proc.devRef .tc main_v57))) := by
  after_results_simp
  rfl

theorem v98 (W : Valuation τ sig (Elt Ideal)) :
    (StableHlo.after ops W (Proc.devRef .tc main_v98) : Gcn.Mat 50000 64)
      = Gcn.gate Gcn.epsGate (W (Proc.devRef .tc main_v41))
          ((maps W).sc (Gcn.had
            (Gcn.sigmoid (Gcn.add3 ((maps W).gS (W (Proc.devRef .tc main_v49))) ((maps W).gD (W (Proc.devRef .tc main_v53)))
              (W (Proc.devRef .tc main_v57))))
            ((maps W).gS (W (Proc.devRef .tc main_v45)))))
          ((maps W).sc (Gcn.sigmoid (Gcn.add3 ((maps W).gS (W (Proc.devRef .tc main_v49))) ((maps W).gD (W (Proc.devRef .tc main_v53)))
              (W (Proc.devRef .tc main_v57)))))
          (W (Proc.devRef .tc main_arg0)) := by
  after_results_simp
  rw [sig_eq, msg_eq, gate_eq]
  rfl

end Cert.ReferenceIdeal.RefS2

end
-- ==== Proof.RefS3.lean ====
import proofs.«123720_j33586644255160_2_alg».proof.Proof.RefS1

noncomputable section

namespace Cert.ReferenceIdeal.RefS3

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_cst_17 (constant S_ .f32 0x00000000#32),
    binary main_v98 main_cst_17 main_v100 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_18 (constant S_ .f32 0x47435000#32),
    unary main_cst_18 main_v101 (broadcastInDim S64 ![] bcast_S_S64),
    binary main_v100 main_v101 main_v102 Host.divf,
    nullary main_c_19 (constantI S_ 32 0#32),
    nullary main_call2_cst (constant S_ .f32 0x00000000#32),
    binary main_v98 main_call2_cst main_call2_v0 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call2_v0 main_call2_v1 (broadcastInDim S1x64 ![1] bcast_S64_S1x64_1),
    nullary main_call2_cst_0 (constant S_ .f32 0x47435000#32),
    unary main_call2_cst_0 main_call2_v2 (broadcastInDim S1x64 ![] bcast_S_S1x64),
    binary main_call2_v1 main_call2_v2 main_call2_v3 Host.divf,
    unary main_call2_v3 main_call2_v4 (broadcastInDim S50000x64 ![0, 1] bcast_S1x64_S50000x64_0_1),
    binary main_v98 main_call2_v4 main_call2_v5 subf,
    binary main_call2_v5 main_call2_v5 main_call2_v6 mulf,
    unary main_c_19 main_call2_v7 (sitofp .f32),
    nullary main_call2_cst_1 (constant S_ .f32 0x47435000#32),
    binary main_call2_cst_1 main_call2_v7 main_call2_v8 subf,
    nullary main_call2_cst_2 (constant S_ .f32 0x00000000#32),
    binary main_call2_v6 main_call2_cst_2 main_call2_v9 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    unary main_call2_v8 main_call2_v10 (broadcastInDim S64 ![] bcast_S_S64),
    binary main_call2_v9 main_call2_v10 main_call2_v11 Host.divf,
    nullary main_call2_cst_3 (constant S_ .f32 0x00000000#32),
    binary main_call2_v8 main_call2_cst_3 main_call2_v12 (cmpf .ogt),
    nullary main_call2_cst_4 (constant S_ .f32 0x7FC00000#32),
    unary main_call2_cst_4 main_call2_call0_v0 id,
    unary main_call2_call0_v0 main_call2_call0_v1 (broadcastInDim S64 ![] bcast_S_S64),
    ternary main_call2_v12 main_call2_v11 main_call2_call0_v1 main_v103 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)),
    unary main_v102 main_v104 (broadcastInDim S1x64 ![1] bcast_S64_S1x64_1),
    unary main_v104 main_v105 (broadcastInDim S50000x64 ![0, 1] bcast_S1x64_S50000x64_0_1),
    binary main_v98 main_v105 main_v106 subf,
    unary main_arg16 main_v107 (broadcastInDim S1x64 ![1] bcast_S64_S1x64_1),
    unary main_v107 main_v108 (broadcastInDim S50000x64 ![0, 1] bcast_S1x64_S50000x64_0_1),
    binary main_v108 main_v106 main_v109 mulf,
    nullary main_cst_20 (constant S_ .f32 0x3727C5AC#32),
    unary main_cst_20 main_v110 (broadcastInDim S64 ![] bcast_S_S64),
    binary main_v103 main_v110 main_v111 addf,
    unary main_v111 main_v112 Host.rsqrt,
    unary main_v112 main_v113 (broadcastInDim S1x64 ![1] bcast_S64_S1x64_1),
    unary main_v113 main_v114 (broadcastInDim S50000x64 ![0, 1] bcast_S1x64_S50000x64_0_1),
    binary main_v109 main_v114 main_v115 mulf,
    unary main_arg20 main_v116 (broadcastInDim S1x64 ![1] bcast_S64_S1x64_1),
    unary main_v116 main_v117 (broadcastInDim S50000x64 ![0, 1] bcast_S1x64_S50000x64_0_1),
    binary main_v115 main_v117 main_v118 addf,
    binary main_v118 main_arg22 main_v119 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg23 main_v120 (broadcastInDim S1x128 ![1] bcast_S128_S1x128_1),
    unary main_v120 main_v121 (broadcastInDim S50000x128 ![0, 1] bcast_S1x128_S50000x128_0_1),
    binary main_v119 main_v121 main_v122 addf,
    nullary main_call3_cst (constant S_ .f32 0x00000000#32),
    unary main_call3_cst main_call3_v0 (broadcastInDim S50000x128 ![] bcast_S_S50000x128),
    binary main_v122 main_call3_v0 main_v123 maximumf,
    binary main_v123 main_arg24 main_v124 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg25 main_v125 (broadcastInDim S1x64 ![1] bcast_S64_S1x64_1),
    unary main_v125 main_v126 (broadcastInDim S50000x64 ![0, 1] bcast_S1x64_S50000x64_0_1),
    binary main_v124 main_v126 main_v127 addf ]

theorem ops_sub : (ops : List (HloOp τ sig (Elt F))).Forall fun op => op.bufs ⊆ tcRefs τ sig := by
  simp only [List.Forall, nullary_bufs_sub, unary_bufs_sub, binary_bufs_sub, ternary_bufs_sub, and_self]

def written : List (Ref sig .tc) :=
  [ main_cst_17, main_v100, main_cst_18, main_v101, main_v102, main_c_19, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v103, main_v104, main_v105, main_v106, main_v107, main_v108, main_v109, main_cst_20, main_v110, main_v111, main_v112, main_v113, main_v114, main_v115, main_v116, main_v117, main_v118, main_v119, main_v120, main_v121, main_v122, main_call3_cst, main_call3_v0, main_v123, main_v124, main_v125, main_v126, main_v127 ]

theorem keep (W : Valuation τ sig (Elt F)) (b : Ref sig .tc) (hb : b ∉ written) :
    StableHlo.after ops W (Proc.devRef .tc b) = W (Proc.devRef .tc b) :=
  after_of_writes_sub ops W (by
    simp only [List.Forall, nullary_writes, unary_writes, binary_writes, ternary_writes, Finset.singleton_subset_iff,
      List.mem_toFinset]
    repeat' apply And.intro
    all_goals exact List.mem_map_of_mem (by decide)) hb

set_option maxHeartbeats 8000000 in
theorem v127 (W : Valuation τ sig (Elt Ideal)) :
    (StableHlo.after ops W (Proc.devRef .tc main_v127) : Gcn.Mat 50000 64)
      = Gcn.ff (Gcn.bn Gcn.epsBN (Gcn.vec (W (Proc.devRef .tc main_arg16))) (Gcn.vec (W (Proc.devRef .tc main_arg20)))
            (Gcn.mean Gcn.nNodes (W (Proc.devRef .tc main_v98) : Gcn.Mat 50000 64))
            (Gcn.varCentered Gcn.nNodes (W (Proc.devRef .tc main_v98) : Gcn.Mat 50000 64))
            (W (Proc.devRef .tc main_v98) : Gcn.Mat 50000 64))
          (W (Proc.devRef .tc main_arg22)) (Gcn.vec (W (Proc.devRef .tc main_arg23)))
          (W (Proc.devRef .tc main_arg24)) (Gcn.vec (W (Proc.devRef .tc main_arg25))) := by
  after_results_simp
  rw [Gcn.bn_read RefS1.witN _ _ RefS1.nNodes_pos, Gcn.lin_read (d := dot_S50000x64_S64x128_S50000x128_1_0_0_1_n_n) rfl,
    Gcn.relu_read, Gcn.lin_read (d := dot_S50000x128_S128x64_S50000x64_1_0_0_1_n_n) rfl]
  rfl

end Cert.ReferenceIdeal.RefS3

end
-- ==== Proof.RefS4.lean ====
import proofs.«123720_j33586644255160_2_alg».proof.Proof.Gen.ReferenceIdeal
import Idealize.ShloMosaic.Lib.StableHlo.Run
import proofs.«123720_j33586644255160_2_alg».proof.Proof.ColNorm
import proofs.«123720_j33586644255160_2_alg».proof.Proof.AlgVar

noncomputable section

namespace Cert.ReferenceIdeal.RefS4

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ nullary main_cst_21 (constant S_ .f32 0x00000000#32),
    binary main_v99 main_cst_21 main_v128 (fun x v => Host.reduceAdd x v reducesTo_S800000x64_S64_d0 h_S_),
    nullary main_cst_22 (constant S_ .f32 0x49435000#32),
    unary main_cst_22 main_v129 (broadcastInDim S64 ![] bcast_S_S64),
    binary main_v128 main_v129 main_v130 Host.divf,
    nullary main_c_23 (constantI S_ 32 0#32),
    nullary main_call4_cst (constant S_ .f32 0x00000000#32),
    binary main_v99 main_call4_cst main_call4_v0 (fun x v => Host.reduceAdd x v reducesTo_S800000x64_S64_d0 h_S_),
    unary main_call4_v0 main_call4_v1 (broadcastInDim S1x64 ![1] bcast_S64_S1x64_1),
    nullary main_call4_cst_0 (constant S_ .f32 0x49435000#32),
    unary main_call4_cst_0 main_call4_v2 (broadcastInDim S1x64 ![] bcast_S_S1x64),
    binary main_call4_v1 main_call4_v2 main_call4_v3 Host.divf,
    unary main_call4_v3 main_call4_v4 (broadcastInDim S800000x64 ![0, 1] bcast_S1x64_S800000x64_0_1),
    binary main_v99 main_call4_v4 main_call4_v5 subf,
    binary main_call4_v5 main_call4_v5 main_call4_v6 mulf,
    unary main_c_23 main_call4_v7 (sitofp .f32),
    nullary main_call4_cst_1 (constant S_ .f32 0x49435000#32),
    binary main_call4_cst_1 main_call4_v7 main_call4_v8 subf,
    nullary main_call4_cst_2 (constant S_ .f32 0x00000000#32),
    binary main_call4_v6 main_call4_cst_2 main_call4_v9 (fun x v => Host.reduceAdd x v reducesTo_S800000x64_S64_d0 h_S_),
    unary main_call4_v8 main_call4_v10 (broadcastInDim S64 ![] bcast_S_S64),
    binary main_call4_v9 main_call4_v10 main_call4_v11 Host.divf,
    nullary main_call4_cst_3 (constant S_ .f32 0x00000000#32),
    binary main_call4_v8 main_call4_cst_3 main_call4_v12 (cmpf .ogt),
    nullary main_call4_cst_4 (constant S_ .f32 0x7FC00000#32),
    unary main_call4_cst_4 main_call4_call0_v0 id,
    unary main_call4_call0_v0 main_call4_call0_v1 (broadcastInDim S64 ![] bcast_S_S64),
    ternary main_call4_v12 main_call4_v11 main_call4_call0_v1 main_v131 (fun p a b => select (broadcastInDim S64 ![] bcast_S_S64 p) a b),
    unary main_v130 main_v132 (broadcastInDim S1x64 ![1] bcast_S64_S1x64_1),
    unary main_v132 main_v133 (broadcastInDim S800000x64 ![0, 1] bcast_S1x64_S800000x64_0_1),
    binary main_v99 main_v133 main_v134 subf,
    unary main_arg17 main_v135 (broadcastInDim S1x64 ![1] bcast_S64_S1x64_1),
    unary main_v135 main_v136 (broadcastInDim S800000x64 ![0, 1] bcast_S1x64_S800000x64_0_1),
    binary main_v136 main_v134 main_v137 mulf,
    nullary main_cst_24 (constant S_ .f32 0x3727C5AC#32),
    unary main_cst_24 main_v138 (broadcastInDim S64 ![] bcast_S_S64),
    binary main_v131 main_v138 main_v139 addf,
    unary main_v139 main_v140 Host.rsqrt,
    unary main_v140 main_v141 (broadcastInDim S1x64 ![1] bcast_S64_S1x64_1),
    unary main_v141 main_v142 (broadcastInDim S800000x64 ![0, 1] bcast_S1x64_S800000x64_0_1),
    binary main_v137 main_v142 main_v143 mulf,
    unary main_arg21 main_v144 (broadcastInDim S1x64 ![1] bcast_S64_S1x64_1),
    unary main_v144 main_v145 (broadcastInDim S800000x64 ![0, 1] bcast_S1x64_S800000x64_0_1),
    binary main_v143 main_v145 main_v146 addf,
    binary main_v146 main_arg26 main_v147 (fun l r => Host.dotGeneral dot_S800000x64_S64x128_S800000x128_1_0_0_1_n_n none l r),
    unary main_arg27 main_v148 (broadcastInDim S1x128 ![1] bcast_S128_S1x128_1),
    unary main_v148 main_v149 (broadcastInDim S800000x128 ![0, 1] bcast_S1x128_S800000x128_0_1),
    binary main_v147 main_v149 main_v150 addf,
    nullary main_call5_cst (constant S_ .f32 0x00000000#32),
    unary main_call5_cst main_call5_v0 (broadcastInDim S800000x128 ![] bcast_S_S800000x128),
    binary main_v150 main_call5_v0 main_v151 maximumf,
    binary main_v151 main_arg28 main_v152 (fun l r => Host.dotGeneral dot_S800000x128_S128x64_S800000x64_1_0_0_1_n_n none l r),
    unary main_arg29 main_v153 (broadcastInDim S1x64 ![1] bcast_S64_S1x64_1),
    unary main_v153 main_v154 (broadcastInDim S800000x64 ![0, 1] bcast_S1x64_S800000x64_0_1),
    binary main_v152 main_v154 main_v155 addf,
    binary main_v98 main_v127 main_v156 addf,
    binary main_v99 main_v155 main_v157 addf ]

theorem ops_sub : (ops : List (HloOp τ sig (Elt F))).Forall fun op => op.bufs ⊆ tcRefs τ sig := by
  repeat' apply And.intro
  all_goals simp only [List.Forall, nullary_bufs_sub, unary_bufs_sub, binary_bufs_sub, ternary_bufs_sub]

def written : List (Ref sig .tc) :=
  [ main_cst_21, main_v128, main_cst_22, main_v129, main_v130, main_c_23,
    main_call4_cst, main_call4_v0, main_call4_v1, main_call4_cst_0, main_call4_v2, main_call4_v3,
    main_call4_v4, main_call4_v5, main_call4_v6, main_call4_v7, main_call4_cst_1, main_call4_v8,
    main_call4_cst_2, main_call4_v9, main_call4_v10, main_call4_v11, main_call4_cst_3, main_call4_v12,
    main_call4_cst_4, main_call4_call0_v0, main_call4_call0_v1, main_v131, main_v132, main_v133,
    main_v134, main_v135, main_v136, main_v137, main_cst_24, main_v138,
    main_v139, main_v140, main_v141, main_v142, main_v143, main_v144,
    main_v145, main_v146, main_v147, main_v148, main_v149, main_v150,
    main_call5_cst, main_call5_v0, main_v151, main_v152, main_v153, main_v154,
    main_v155, main_v156, main_v157 ]

-- Every operation writes a listed buffer, so a buffer off the list keeps its contents.
theorem keep (W : Valuation τ sig (Elt F)) (b : Ref sig .tc) (hb : b ∉ written) :
    StableHlo.after ops W (Proc.devRef .tc b) = W (Proc.devRef .tc b) := by
  refine after_of_writes_sub ops W ?_ hb
  simp only [List.Forall, nullary_writes, unary_writes, binary_writes, ternary_writes, Finset.singleton_subset_iff,
    List.mem_toFinset]
  repeat' apply And.intro
  all_goals exact List.mem_map_of_mem (by decide)

theorem wit : Gcn.Wit 800000 64 :=
  ⟨reducesTo_S800000x64_S64_d0, by decide, h_S_, bcast_S_S64, bcast_S_S1x64, bcast_S64_S1x64_1, bcast_S1x64_S800000x64_0_1⟩

theorem nEdges_pos : (0 : EReal) < Gcn.nEdges := by
  rw [Gcn.nEdges_eq]; exact EReal.coe_pos.mpr (by norm_num)

set_option maxRecDepth 16384 in
-- The edge result: the entry features plus the two linear maps of their normalisation.
theorem v157 (W : Valuation τ sig (Elt Ideal)) :
    (StableHlo.after ops W (Proc.devRef .tc main_v157) : Gcn.Mat 800000 64)
      = Gcn.resid (W (Proc.devRef .tc main_v99) : Gcn.Mat 800000 64)
          (Gcn.ff
            (Gcn.bn Gcn.epsBN (Gcn.vec (W (Proc.devRef .tc main_arg17))) (Gcn.vec (W (Proc.devRef .tc main_arg21)))
              (Gcn.mean Gcn.nEdges (W (Proc.devRef .tc main_v99) : Gcn.Mat 800000 64))
              (Gcn.varCentered Gcn.nEdges (W (Proc.devRef .tc main_v99) : Gcn.Mat 800000 64))
              (W (Proc.devRef .tc main_v99) : Gcn.Mat 800000 64))
            (W (Proc.devRef .tc main_arg26)) (Gcn.vec (W (Proc.devRef .tc main_arg27)))
            (W (Proc.devRef .tc main_arg28)) (Gcn.vec (W (Proc.devRef .tc main_arg29)))) := by
  after_results_simp
  rw [Gcn.bn_read wit _ _ nEdges_pos, Gcn.lin_read (d := dot_S800000x64_S64x128_S800000x128_1_0_0_1_n_n) rfl, Gcn.relu_read,
    Gcn.lin_read (d := dot_S800000x128_S128x64_S800000x64_1_0_0_1_n_n) rfl]
  rfl

set_option maxRecDepth 16384 in
-- The node result: the sum of the two buffers the stretch is entered with.
theorem v156 (W : Valuation τ sig (Elt Ideal)) :
    (StableHlo.after ops W (Proc.devRef .tc main_v156) : Gcn.Mat 50000 64)
      = Gcn.resid (W (Proc.devRef .tc main_v98)) (W (Proc.devRef .tc main_v127)) := by
  after_results_simp
  rfl

end Cert.ReferenceIdeal.RefS4

end
-- ==== Proof.RefRun.lean ====
import proofs.«123720_j33586644255160_2_alg».proof.Proof.RefS1
import proofs.«123720_j33586644255160_2_alg».proof.Proof.RefS2
import proofs.«123720_j33586644255160_2_alg».proof.Proof.RefS3
import proofs.«123720_j33586644255160_2_alg».proof.Proof.RefS4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The layer's operations in program order: the four stretches one after the other. -/
abbrev opsAll : List (HloOp τ sig (Elt F)) := RefS1.ops ++ RefS2.ops ++ RefS3.ops ++ RefS4.ops

-- The fold over two lines run in turn is the second line's fold from where the first ends.
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 16384 in
-- The program is its operations in order, each called function's operations standing at its call.
theorem main_eq (c : Dev nD) : main (F := F) c = seq opsAll := rfl

theorem ops_sub : (opsAll : List (HloOp τ sig (Elt F))).Forall fun op => op.bufs ⊆ tcRefs τ sig :=
  List.forall_append.2 ⟨List.forall_append.2 ⟨List.forall_append.2 ⟨RefS1.ops_sub, RefS2.ops_sub⟩, RefS3.ops_sub⟩,
    RefS4.ops_sub⟩

-- Every operation determines the contents of each buffer it writes.
theorem ops_fresh : (opsAll : List (HloOp τ sig (Elt F))).Forall fun op => op.fresh = ∅ := by
  simp only [opsAll, RefS1.ops, RefS2.ops, RefS3.ops, RefS4.ops, List.forall_append, List.Forall]
  repeat' apply And.intro
  all_goals rfl

-- Every fair execution terminates with each buffer at the fold of the four stretches over the launch contents.
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after RefS4.ops (after RefS3.ops (after RefS2.ops (after RefS1.ops (launchContents m d)))) (Proc.devRef .tc b) := by
  simpa only [opsAll, after_append] using
    run_seq (by decide) (by decide) defs main (fun _ => opsAll) main_eq (fun _ => ops_sub) m ρ
      (fun _ => List.forall_iff_forall_mem.1 ops_fresh)

end Cert.ReferenceIdeal.RefRun

end
-- ==== Proof.RFinal.lean ====
import proofs.«123720_j33586644255160_2_alg».proof.Proof.RefS1
import proofs.«123720_j33586644255160_2_alg».proof.Proof.RefS2
import proofs.«123720_j33586644255160_2_alg».proof.Proof.RefS3
import proofs.«123720_j33586644255160_2_alg».proof.Proof.RefS4
import proofs.«123720_j33586644255160_2_alg».proof.Proof.KDefs
import proofs.«123720_j33586644255160_2_alg».proof.Proof.IdxMaps

set_option maxRecDepth 16384

noncomputable section

namespace Cert.ReferenceIdeal.RFinal

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

/-- The contents after the first stretch and after all four, from the launch memory. -/
abbrev R1 (c : Dev nD) : Valuation τ sig (Elt Ideal) := StableHlo.after RefS1.ops (launchContents m c)
abbrev R4 (c : Dev nD) : Valuation τ sig (Elt Ideal) := StableHlo.after RefS4.ops (StableHlo.after RefS3.ops (StableHlo.after RefS2.ops (R1 m c)))

-- A buffer no stretch writes ends as launched.
theorem kept (c : Dev nD) (b : Ref sig .tc) (h : b ∉ RefS1.written ++ (RefS2.written ++ (RefS3.written ++ RefS4.written))) :
    R4 m c (Proc.devRef .tc b) = m ((c.tc : Thread nD τ).loc b) := by
  simp only [List.mem_append, not_or] at h
  exact (RefS4.keep _ b h.2.2.2).trans ((RefS3.keep _ b h.2.2.1).trans ((RefS2.keep _ b h.2.1).trans (RefS1.keep _ b h.1)))

/-- The reference program's index maps. -/
abbrev maps (c : Dev nD) : Gcn.Maps := RefS2.maps (R1 m c)

-- The node result: each stretch's result read in turn, the buffers a stretch does not write carried through it.
theorem v156 (c : Dev nD) : (R4 m c (Proc.devRef .tc main_v156) : Gcn.Mat 50000 64)
      = Gcn.hOut (RDefs.params m c) (maps m c) (Gcn.varCentered Gcn.nNodes) (Gcn.varCentered Gcn.nEdges) := by
  unfold R4 R1
  rw [RefS4.v156, RefS3.v127, RefS3.keep _ main_v98 (by decide), RefS2.v98, RefS1.v41, RefS1.v45, RefS1.v49, RefS1.v53, RefS1.v57]
  repeat (first | (rw [RefS2.keep]; rotate_left; decide) | (rw [RefS1.keep]; rotate_left; decide))
  rfl

-- The edge result, likewise.
theorem v157 (c : Dev nD) : (R4 m c (Proc.devRef .tc main_v157) : Gcn.Mat 800000 64)
      = Gcn.eOut (RDefs.params m c) (maps m c) (Gcn.varCentered Gcn.nNodes) (Gcn.varCentered Gcn.nEdges) := by
  unfold R4 R1
  rw [RefS4.v157, RefS3.keep _ main_v99 (by decide), RefS2.v99, RefS1.v49, RefS1.v53, RefS1.v57]
  repeat (first | (rw [RefS3.keep]; rotate_left; decide) | (rw [RefS2.keep]; rotate_left; decide) | (rw [RefS1.keep]; rotate_left; decide))
  rfl

theorem maps_eq (c : Dev nD) :
    maps m c
      = Gcn.mkMaps Facts₀.gather_S50000x64_S800000x1_S800000x64_1_0_n_n_0_1_164_wf
          Facts₀.scatter_S50000x64_S800000x1_S800000x64_1_0_0_1_wf Facts₀.bcast_S_S800000 Facts₀.bcast_S800000_S800000x1_0
          Facts₀.bcast_S_S50000x64 (m ((c.tc : Thread nD τ).loc main_arg2)) (m ((c.tc : Thread nD τ).loc main_arg3)) := by
  unfold maps R1 RefS2.maps
  rw [RefS1.keep _ main_arg2 (by decide), RefS1.keep _ main_arg3 (by decide)]
  rfl

end Cert.ReferenceIdeal.RFinal

end
-- ==== Proof.RAsm.lean ====
import proofs.«123720_j33586644255160_2_alg».proof.Proof.RefRun
import proofs.«123720_j33586644255160_2_alg».proof.Proof.RFinal

set_option maxRecDepth 16384

noncomputable section

namespace Cert.ReferenceIdeal.RAsm

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v156)
          = Gcn.hOut (RDefs.params m c) (RFinal.maps m c) (Gcn.varCentered Gcn.nNodes) (Gcn.varCentered Gcn.nEdges)
      ∧ r.2.mem ((c.tc : Thread nD τ).loc main_v157)
          = Gcn.eOut (RDefs.params m c) (RFinal.maps m c) (Gcn.varCentered Gcn.nNodes) (Gcn.varCentered Gcn.nEdges)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => by
    refine ⟨(h c _).trans (RFinal.v156 m c), (h c _).trans (RFinal.v157 m c), ?_⟩
    repeat' apply And.intro
    all_goals exact (h c _).trans (RFinal.kept m c _ (by decide)))
    (RefRun.run m ρ)

end Cert.ReferenceIdeal.RAsm

end
-- ==== Proof.AlgLayer.lean ====
import proofs.«123720_j33586644255160_2_alg».proof.Proof.AlgVar

noncomputable section

namespace Gcn

open Idealize.ShloMosaic Idealize.ShloMosaic.ValueIdx

variable {R C K : Nat}

/-- Every factor is real, and the reciprocal square root is taken of a positive real. -/
theorem bn_finite {eps : EReal} (heps : Pos eps) {g b mu v : RowV C} (hg : RowFinite g) (hb : RowFinite b)
    (hmu : RowFinite mu) (hv : ∀ j, Re (v j) ∧ 0 ≤ v j) {X : Mat R C} (hX : MatFinite X) : MatFinite (bn eps g b mu v X) :=
  fun i => re_add (re_mul (re_mul (hg _) (re_sub (hX i) (hmu _))) (re_rsqrt (pos_add (hv _).1 (hv _).2 heps))) (hb _)

theorem lin_finite {X : Mat R K} {W : Mat K C} {b : RowV C} (hX : MatFinite X) (hW : MatFinite W) (hb : RowFinite b) :
    MatFinite (lin X W b) :=
  fun _ => re_add (re_sum _ fun _ _ => re_mul (hX _) (hW _)) (hb _)

theorem nNodes_cast : nNodes = (((50000 : ℕ) : ℝ) : EReal) := by rw [nNodes_eq, Nat.cast_ofNat]

theorem nEdges_cast : nEdges = (((800000 : ℕ) : ℝ) : EReal) := by rw [nEdges_eq, Nat.cast_ofNat]

/-- Every stage up to the first residual keeps real entries, given non-negative real variances of `h` and `e`. -/
theorem h1_e1_finite {P : Params} {M : Maps} (hP : P.Finite) (hM : M.Sane) {vN : Mat 50000 64 → RowV 64}
    {vE : Mat 800000 64 → RowV 64} (hN : ∀ j, Re (vN P.h j) ∧ 0 ≤ vN P.h j)
    (hE : ∀ j, Re (vE P.e j) ∧ 0 ≤ vE P.e j) :
    MatFinite (h1 P M vN vE) ∧ MatFinite (e1 P M vN vE) := by
  have hhn : MatFinite (hn1 P vN) :=
    bn_finite epsBN_pos hP.g1h hP.b1h (mean_finite nNodes_cast (by norm_num) hP.h) hN hP.h
  have hen : MatFinite (en1 P vE) :=
    bn_finite epsBN_pos hP.g1e hP.b1e (mean_finite nEdges_cast (by norm_num) hP.e) hE hP.e
  have hNew : MatFinite (eNew P M vN vE) := fun i =>
    re_add (re_add (hM.gS _ (lin_finite hhn hP.Cw hP.Cb) i) (hM.gD _ (lin_finite hhn hP.Dw hP.Db) i))
      (lin_finite hen hP.Ew hP.Eb i)
  have hS : MatFinite (sig P M vN vE) := fun i => (re_logistic (hNew i)).1
  have hS0 : ∀ i, 0 ≤ sig P M vN vE i := fun i => (re_logistic (hNew i)).2
  have hMsg : MatFinite (msgs P M vN vE) := fun i => re_mul (hS i) (hM.gS _ (lin_finite hhn hP.Bw hP.Bb) i)
  exact ⟨fun i => re_add (hP.h i) (re_add (lin_finite hhn hP.Aw hP.Ab i) (re_div (hM.sc _ hMsg i)
      (pos_add (hM.sc _ hS i) (hM.sc_nonneg _ hS hS0 i) epsGate_pos))),
    fun i => re_add (hP.e i) (hNew i)⟩

/-- The two variances agree on `h` and `e`, hence on the matrices after the first residual, which are real. -/
theorem layer_eq (P : Params) (M : Maps) (hP : P.Finite) (hM : M.Sane) :
    hOut P M (varClamped nNodes) (varClamped nEdges) = hOut P M (varCentered nNodes) (varCentered nEdges) ∧
      eOut P M (varClamped nNodes) (varClamped nEdges) = eOut P M (varCentered nNodes) (varCentered nEdges) := by
  have vN := fun X : Mat 50000 64 => var_eq nNodes_cast (by norm_num) (X := X)
  have vE := fun X : Mat 800000 64 => var_eq nEdges_cast (by norm_num) (X := X)
  obtain ⟨fh, fe⟩ := h1_e1_finite hP hM (var_nonneg nNodes_cast (by norm_num) hP.h)
    (var_nonneg nEdges_cast (by norm_num) hP.e)
  have hh : h1 P M (varClamped nNodes) (varClamped nEdges) = h1 P M (varCentered nNodes) (varCentered nEdges) := by
    simp only [h1, msgs, sig, eNew, pA, pB, pC, pD, pE, hn1, en1, vN _ hP.h, vE _ hP.e]
  have he : e1 P M (varClamped nNodes) (varClamped nEdges) = e1 P M (varCentered nNodes) (varCentered nEdges) := by
    simp only [e1, eNew, pC, pD, pE, hn1, en1, vN _ hP.h, vE _ hP.e]
  exact ⟨by unfold hOut; rw [hh, vN _ fh], by unfold eOut; rw [he, vE _ fe]⟩

end Gcn

end
-- ==== Proof.PreFinite.lean ====
import proofs.«123720_j33586644255160_2_alg».proof.Defs
import proofs.«123720_j33586644255160_2_alg».proof.Proof.Gen.Pre_finite_inputs
import proofs.«123720_j33586644255160_2_alg».proof.Proof.KDefs
import Idealize.ShloMosaic.Lib.ReduceAll
import Idealize.ShloMosaic.Lib.StableHlo.Predicate

namespace Cert.KernelIdeal.PreFinite

open Idealize.ShloMosaic Idealize.SL.Sem Idealize.ShloMosaic.ValueIdx

instance : Subsingleton Cert.Pre_finite_inputs.S_.Idx := ⟨fun a b => funext fun d => d.elim0⟩

/-- `max x (-x)` is `⊤` at both infinities, so `|x| < +∞` says that `x` is a real number. -/
theorem elt_finite (x : EReal) (h : Ideal.cmp .olt (max x (-x)) (Ideal.ofBits .f32 0x7F800000#32) = 1#1) :
    x ≠ ⊤ ∧ x ≠ ⊥ := by
  rw [show Ideal.ofBits .f32 0x7F800000#32 = (⊤ : EReal) by simp [Ideal.ofBits, Ideal.ieee]] at h
  simp only [Ideal.cmp, StableHlo.Predicate.ofBool_eq_one_iff, decide_eq_true_eq] at h
  constructor <;> (rintro rfl; simp at h)

/-- A conjunction over all entries is one only if each entry's flag is one. -/
theorem all_finite {s : Shape} {axes : List (Fin s.rank)} {hb : Cert.Pre_finite_inputs.S_.BroadcastsInDim s ![]}
    {hr : s.ReducesTo axes Cert.Pre_finite_inputs.S_} {h0 : 0 < Cert.Pre_finite_inputs.S_.numel}
    {x : FVec Ideal s .f32} {init : IVec Cert.Pre_finite_inputs.S_ 1}
    (h : Host.reduce IntOp.andi
        (cmpf .olt (Host.absf x) (broadcastInDim s ![] hb (constant Cert.Pre_finite_inputs.S_ .f32 0x7F800000#32)))
        init hr h0 ix0 = 1#1) (i : s.Idx) : x i ≠ ⊤ ∧ x i ≠ ⊥ := by
  have e : Ideal.cmp .olt (max (x i) (-(x i)))
      (broadcastInDim s ![] hb (constant (F := Ideal) Cert.Pre_finite_inputs.S_ .f32 0x7F800000#32) i) = 1#1 :=
    Host.reduce_andi_all _ init hr h0 ix0 h i
  rw [StableHlo.Predicate.bcast_scalar hb h0] at e
  exact elt_finite (x i) e

theorem and_ix0 (a b : IVec Cert.Pre_finite_inputs.S_ 1) : andi a b ix0 = 1#1 ↔ a ix0 = 1#1 ∧ b ix0 = 1#1 :=
  IntOp.andi_eq_one

open Cert.Pre_finite_inputs in
/-- The precondition is a conjunction of one flag per float argument; a rank-one argument is read as a row. -/
theorem params_finite [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.KDefs.params m c).Finite := by
  have h := congrFun (hpre c) ix0
  dsimp only [fn, fn_part1, fn_part2, fn_part3, fn_part4, fn_part5, fn_part6, fn_part7, fn_part8] at h
  simp only [and_ix0] at h
  obtain ⟨⟨⟨⟨⟨⟨⟨⟨⟨⟨⟨⟨⟨⟨⟨⟨⟨⟨⟨⟨⟨⟨⟨⟨⟨⟨⟨a0, a1⟩, a4⟩, a5⟩, a6⟩, a7⟩, a8⟩, a9⟩, a10⟩, a11⟩, a12⟩, a13⟩, a14⟩, a15⟩, a16⟩, a17⟩,
    a18⟩, a19⟩, a20⟩, a21⟩, a22⟩, a23⟩, a24⟩, a25⟩, a26⟩, a27⟩, a28⟩, a29⟩ := h
  exact ⟨all_finite a0, all_finite a1, all_finite a4, all_finite a5, all_finite a6, all_finite a7, all_finite a8,
    fun j => all_finite a9 (ix1 j), fun j => all_finite a10 (ix1 j), fun j => all_finite a11 (ix1 j),
    fun j => all_finite a12 (ix1 j), fun j => all_finite a13 (ix1 j), fun j => all_finite a14 (ix1 j),
    fun j => all_finite a15 (ix1 j), fun j => all_finite a16 (ix1 j), fun j => all_finite a17 (ix1 j),
    fun j => all_finite a18 (ix1 j), fun j => all_finite a19 (ix1 j), fun j => all_finite a20 (ix1 j),
    fun j => all_finite a21 (ix1 j), all_finite a22, fun j => all_finite a23 (ix1 j), all_finite a24,
    fun j => all_finite a25 (ix1 j), all_finite a26, fun j => all_finite a27 (ix1 j), all_finite a28,
    fun j => all_finite a29 (ix1 j)⟩

end Cert.KernelIdeal.PreFinite
-- ==== Proof.lean ====
import proofs.«123720_j33586644255160_2_alg».proof.Defs
import proofs.«123720_j33586644255160_2_alg».proof.Proof.Gen.Kernel.Frame
import proofs.«123720_j33586644255160_2_alg».proof.Proof.Gen.KernelIdeal.Frame
import proofs.«123720_j33586644255160_2_alg».proof.Proof.Gen.ReferenceIdeal
import proofs.«123720_j33586644255160_2_alg».proof.Proof.Gen.Pre_finite_inputs
import proofs.«123720_j33586644255160_2_alg».proof.Proof.KRun
import proofs.«123720_j33586644255160_2_alg».proof.Proof.KFinal
import proofs.«123720_j33586644255160_2_alg».proof.Proof.RAsm
import proofs.«123720_j33586644255160_2_alg».proof.Proof.AlgLayer
import proofs.«123720_j33586644255160_2_alg».proof.Proof.PreFinite
import Idealize.ShloMosaic.Adequacy
import Idealize.ShloMosaic.Init

set_option maxRecDepth 16384

noncomputable section

namespace Cert.Proof

open Idealize.ShloMosaic Idealize.SL.Sem

theorem frame_ri : Cert.frame_ReferenceIdeal := fun m ρ _ =>
  (θ_run ReferenceIdeal.defs _ _).mono (fun _ h c => (h c).2.2) (ReferenceIdeal.RAsm.run m ρ)

-- Both programs compute the layer over equal arguments and equal index maps; on real arguments the two variances agree.
theorem algebraic : Cert.algebraic_KernelIdeal_ReferenceIdeal := by
  intro m ρ m' ρ' hpre hagree
  refine ⟨_, _, (θ_run KernelIdeal.defs _ _).mono
      (fun r h c => ⟨(h c).1.trans (KernelIdeal.KFinal.v84 m ρ c), (h c).2.1.trans (KernelIdeal.KFinal.v85 m ρ c), (h c).2.2⟩)
      (KernelIdeal.KRun.run_values m ρ),
    (θ_run ReferenceIdeal.defs _ _).mono (fun r h c => ?_) (ReferenceIdeal.RAsm.run m' ρ')⟩
  have hP : ReferenceIdeal.RDefs.params m' c = KernelIdeal.KDefs.params m c := by
    simp only [ReferenceIdeal.RDefs.params, KernelIdeal.KDefs.params, hagree c]
  have hM : ReferenceIdeal.RFinal.maps m' c = KernelIdeal.KComp2.maps m c := by
    rw [ReferenceIdeal.RFinal.maps_eq, KernelIdeal.KFinal.maps_eq, (hagree c).2.2.1, (hagree c).2.2.2.1]
  have hL := Gcn.layer_eq (KernelIdeal.KDefs.params m c) (KernelIdeal.KComp2.maps m c)
    (KernelIdeal.PreFinite.params_finite m hpre c) (by rw [KernelIdeal.KFinal.maps_eq]; exact Gcn.mkMaps_sane _ _ _ _ _ _ _)
  exact ⟨(h c).1.trans (by rw [hP, hM]; exact hL.1.symm), (h c).2.1.trans (by rw [hP, hM]; exact hL.2.symm), (h c).2.2⟩

theorem claim : Cert.Claim := ⟨Kernel.Gen.facts, KernelIdeal.Gen.facts, ReferenceIdeal.Gen.facts, Pre_finite_inputs.Gen.facts,
  fun m ρ _ => Kernel.Gen.frame m ρ, fun m ρ _ => KernelIdeal.Gen.frame m ρ, frame_ri, trivial, algebraic⟩

end Cert.Proof

end
